-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8192x256 .f32) (main_arg1 : FVec F S8192x8192 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S1x256 : Shape := ⟨2, ![1, 256]⟩
abbrev S1x8192 : Shape := ⟨2, ![1, 8192]⟩
abbrev S8192x1 : Shape := ⟨2, ![8192, 1]⟩
abbrev S256x4096 : Shape := ⟨2, ![256, 4096]⟩
abbrev S1x4096 : Shape := ⟨2, ![1, 4096]⟩
abbrev S4096 : Shape := ⟨1, ![4096]⟩
abbrev S512x256 : Shape := ⟨2, ![512, 256]⟩
abbrev S512x1 : Shape := ⟨2, ![512, 1]⟩
abbrev S512x512 : Shape := ⟨2, ![512, 512]⟩

abbrev nBuf : Space → Nat
  | .hbm => 9
  | .vmem => 19
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S1x8192, .f32⟩
  | .hbm, ⟨6, _⟩ => ⟨S8192x1, .f32⟩
  | .hbm, ⟨7, _⟩ => ⟨S8192x256, .f32⟩
  | .hbm, ⟨8, _⟩ => ⟨S8192x256, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S512x256, .f32⟩
  | .local _ .vmem, ⟨5, _⟩ => ⟨S512x256, .f32⟩
  | .local _ .vmem, ⟨6, _⟩ => ⟨S256x256, .f32⟩
  | .local _ .vmem, ⟨7, _⟩ => ⟨S512x1, .f32⟩
  | .local _ .vmem, ⟨8, _⟩ => ⟨S512x1, .f32⟩
  | .local _ .vmem, ⟨9, _⟩ => ⟨S512x256, .f32⟩
  | .local _ .vmem, ⟨10, _⟩ => ⟨S512x256, .f32⟩
  | .local _ .vmem, ⟨11, _⟩ => ⟨S512x512, .f32⟩
  | .local _ .vmem, ⟨12, _⟩ => ⟨S512x512, .f32⟩
  | .local _ .vmem, ⟨13, _⟩ => ⟨S8192x256, .f32⟩
  | .local _ .vmem, ⟨14, _⟩ => ⟨S512x1, .f32⟩
  | .local _ .vmem, ⟨15, _⟩ => ⟨S512x1, .f32⟩
  | .local _ .vmem, ⟨16, _⟩ => ⟨S1x256, .f32⟩
  | .local _ .vmem, ⟨17, _⟩ => ⟨S512x256, .f32⟩
  | .local _ .vmem, ⟨18, _⟩ => ⟨S512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![16, 16], ![false, false]⟩

def k2_off1 (i : grid2.Coords) : Fin 2 → Nat :=
  let arg1 : BitVec 32 := BitVec.ofNat 32 (i 1).val
  let c512_i32 : BitVec 32 := 512#32
  let v0 : BitVec 32 := Scalar.muli arg1 c512_i32
  let v1 : Index := Scalar.indexCast v0
  let c0 : Index := 0#32
  ![v1.toNat, 0]
def k2_cond1 (i : grid2.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_2 : BitVec 32 := 0#32
  let v8 : BitVec 1 := Scalar.cmpi .ne v7 c0_i32_2
  v8

def k2_cond2 (i : grid2.Coords) : BitVec 1 :=
  let arg1 : BitVec 32 := BitVec.ofNat 32 (i 1).val
  let c0_i32_3 : BitVec 32 := 0#32
  let v9 : BitVec 1 := Scalar.cmpi .sgt arg1 c0_i32_3
  let v10 : BitVec 32 := Scalar.extui v9
  let c0_i32_4 : BitVec 32 := 0#32
  let v11 : BitVec 1 := Scalar.cmpi .ne v10 c0_i32_4
  v11

def k2_cond3 (i : grid2.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_5 : BitVec 32 := 0#32
  let v14 : BitVec 1 := Scalar.cmpi .ne v13 c0_i32_5
  v14

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S512x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  shapeCasts_S256_S1x256 : S256.ShapeCasts S1x256
  shapeCasts_S1x8192_S8192x1 : S1x8192.ShapeCasts S8192x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S256x4096_S256x4096_0_0 : ∀ a, (![0, 0] : Fin 2 → Nat) a + S256x4096.size a ≤ S256x4096.size a
  h_S256x4096 : 0 < S256x4096.numel
  reduces_S256x4096_S4096 : S256x4096.Reduces [0] S4096
  shapeCasts_S4096_S1x4096 : S4096.ShapeCasts S1x4096
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  shapeCasts_S512x256_S512x256 : S512x256.ShapeCasts S512x256
  inb_S512x512_S512x512_0_0 : ∀ a, (![0, 0] : Fin 2 → Nat) a + S512x512.size a ≤ S512x512.size a
  h_S512x512 : 0 < S512x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x256_S256x256_S512x256_1_0_0_1_n_n_wf : DotDims.WF S512x256 S256x256 S512x256 [1] [0] [0] [1] [] []
  dot_S512x512_S512x256_S512x256_0_0_1_1_n_n_wf : DotDims.WF S512x512 S512x256 S512x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x8192.size a
  hwx0_0 : ∀ i : grid0.Coords, EltTy.bits .f32 = 32 ∨ (Rect.block (s := S8192x8192) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x8192.size a
  hwx0_1 : ∀ i : grid0.Coords, EltTy.bits .f32 = 32 ∨ (Rect.block (s := S1x8192) S1x4096.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .f32 = 32 ∨ (Rect.block (s := S8192x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S8192x256.size a
  hwx1_3 : ∀ i : grid1.Coords, EltTy.bits .f32 = 32 ∨ (Rect.block (s := S8192x256) S512x256.size (cc1_transform_3 i) (hinb1_3 i)).WholeWords (EltTy.packing .f32)
  hrank2 : 0 < grid2.rank
  k2_off1_inb : ∀ i : grid2.Coords, ∀ a, (k2_off1 i) a + S512x256.size a ≤ S8192x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S8192x8192.size a
  hwx2_0 : ∀ i : grid2.Coords, EltTy.bits .f32 = 32 ∨ (Rect.block (s := S8192x8192) S512x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .f32 = 32 ∨ (Rect.block (s := S8192x256) S8192x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S8192x1.size a
  hwx2_2 : ∀ i : grid2.Coords, EltTy.bits .f32 = 32 ∨ (Rect.block (s := S8192x1) S512x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x256.size a ≤ S8192x256.size a
  hwx2_4 : ∀ i : grid2.Coords, EltTy.bits .f32 = 32 ∨ (Rect.block (s := S8192x256) S512x256.size (cc2_transform_4 i) (hinb2_4 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x512_S512x256_S512x256_0_0_1_1_n_n : DotDims S512x512 S512x256 S512x256 where
  lhsContracting := [0]
  rhsContracting := [0]
  lhsNonContracting := [1]
  rhsNonContracting := [1]
  lhsBatch := []
  rhsBatch := []
  wf := dot_S512x512_S512x256_S512x256_0_0_1_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v2) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v1) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1) S512x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond1 i == 1#1) && !(k2_cond2 i == 1#1) && !(k2_cond3 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S0 : Shape := ⟨1, ![0]⟩
abbrev S_ : Shape := ⟨0, ![]⟩
abbrev S8192 : Shape := ⟨1, ![8192]⟩
abbrev S1x256 : Shape := ⟨2, ![1, 256]⟩
abbrev S1 : Shape := ⟨1, ![1]⟩
abbrev S8192x1 : Shape := ⟨2, ![8192, 1]⟩
abbrev S512x256 : Shape := ⟨2, ![512, 256]⟩
abbrev S512x1 : Shape := ⟨2, ![512, 1]⟩
abbrev S256x1 : Shape := ⟨2, ![256, 1]⟩

abbrev nBuf : Space → Nat
  | .hbm => 38
  | .vmem => 17
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S0, .i32⟩
  | .hbm, ⟨5, _⟩ => ⟨S0, .i32⟩
  | .hbm, ⟨6, _⟩ => ⟨S0, .i32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .i1⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192x256, .f32⟩
  | .hbm, ⟨19, _⟩ => ⟨S8192x256, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S1x256, .f32⟩
  | .hbm, ⟨28, _⟩ => ⟨S_, .i32⟩
  | .hbm, ⟨29, _⟩ => ⟨S1, .i32⟩
  | .hbm, ⟨30, _⟩ => ⟨S1x256, .f32⟩
  | .hbm, ⟨31, _⟩ => ⟨S_, .f32⟩
  | .hbm, ⟨32, _⟩ => ⟨S8192x1, .f32⟩
  | .hbm, ⟨33, _⟩ => ⟨S_, .i32⟩
  | .hbm, ⟨34, _⟩ => ⟨S1, .i32⟩
  | .hbm, ⟨35, _⟩ => ⟨S8192x1, .f32⟩
  | .hbm, ⟨36, _⟩ => ⟨S8192x256, .f32⟩
  | .hbm, ⟨37, _⟩ => ⟨S8192x256, .f32⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S512x1, .f32⟩
  | .local _ .vmem, ⟨4, _⟩ => ⟨S512x1, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S256x1, .f32⟩
  | .local _ .vmem, ⟨12, _⟩ => ⟨S256x1, .f32⟩
  | .local _ .vmem, ⟨13, _⟩ => ⟨S1x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_c_0 : Ref sig .tc := ⟨.hbm, 5, rfl⟩
abbrev main_call0_c_1 : Ref sig .tc := ⟨.hbm, 6, rfl⟩
abbrev main_call0_cst : Ref sig .tc := ⟨.hbm, 7, rfl⟩
abbrev main_call0_v0 : Ref sig .tc := ⟨.hbm, 8, rfl⟩
abbrev main_call0_cst_2 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_cst_3 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_v4 : Ref sig .tc := ⟨.hbm, 16, rfl⟩
abbrev main_call0_cst_4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_5 : Ref sig .tc := ⟨.hbm, 20, rfl⟩
abbrev main_call0_v7 : Ref sig .tc := ⟨.hbm, 21, rfl⟩
abbrev main_call0_v8 : Ref sig .tc := ⟨.hbm, 22, rfl⟩
abbrev main_call0_cst_6 : Ref sig .tc := ⟨.hbm, 23, rfl⟩
abbrev main_call0_v9 : Ref sig .tc := ⟨.hbm, 24, rfl⟩
abbrev main_call0_v10 : Ref sig .tc := ⟨.hbm, 25, rfl⟩
abbrev main_call0_cst_7 : Ref sig .tc := ⟨.hbm, 26, rfl⟩
abbrev main_call0_v11 : Ref sig .tc := ⟨.hbm, 27, rfl⟩
abbrev main_call0_c_8 : Ref sig .tc := ⟨.hbm, 28, rfl⟩
abbrev main_call0_v12 : Ref sig .tc := ⟨.hbm, 29, rfl⟩
abbrev main_call0_v13 : Ref sig .tc := ⟨.hbm, 30, rfl⟩
abbrev main_call0_cst_9 : Ref sig .tc := ⟨.hbm, 31, rfl⟩
abbrev main_call0_v14 : Ref sig .tc := ⟨.hbm, 32, rfl⟩
abbrev main_call0_c_10 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_v0 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  hz_S0 : S0.numel = 0
  reducesTo_S8192x8192_S8192_d0 : S8192x8192.ReducesTo [0] S8192
  h_S_ : 0 < S_.numel
  bcast_S_S8192 : S_.BroadcastsInDim S8192 (![] : Fin 0 → Fin S8192.rank)
  bcast_S_S8192x256 : S_.BroadcastsInDim S8192x256 (![] : Fin 0 → Fin S8192x256.rank)
  bcast_S_S8192x8192 : S_.BroadcastsInDim S8192x8192 (![] : Fin 0 → Fin S8192x8192.rank)
  bcast_S_S256x256 : S_.BroadcastsInDim S256x256 (![] : Fin 0 → Fin S256x256.rank)
  bcast_S_S1x256 : S_.BroadcastsInDim S1x256 (![] : Fin 0 → Fin S1x256.rank)
  bcast_S_S1 : S_.BroadcastsInDim S1 (![] : Fin 0 → Fin S1.rank)
  bcast_S_S8192x1 : S_.BroadcastsInDim S8192x1 (![] : Fin 0 → Fin S8192x1.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  scatter_S8192x256_S0_S8192x256_01_n_n_0_wf : ScatterDims.WF S8192x256 S0 S8192x256 [0, 1] [] [] 0
  scatter_S8192x8192_S0_S8192x8192_01_n_n_0_wf : ScatterDims.WF S8192x8192 S0 S8192x8192 [0, 1] [] [] 0
  scatter_S256x256_S0_S256x256_01_n_n_0_wf : ScatterDims.WF S256x256 S0 S256x256 [0, 1] [] [] 0
  scatter_S1x256_S1_S256_0_0_0_0_wf : ScatterDims.WF S1x256 S1 S256 [0] [0] [0] 0
  scatter_S8192x1_S1_S8192_0_1_1_0_wf : ScatterDims.WF S8192x1 S1 S8192 [0] [1] [1] 0
  dot_S512x256_S256x256_S512x256_1_0_0_1_n_n_wf : DotDims.WF S512x256 S256x256 S512x256 [1] [0] [0] [1] [] []
  dot_S512x256_S512x256_S256x256_0_0_1_1_n_n_wf : DotDims.WF S512x256 S512x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x256.size a
  hwx0_3 : ∀ i : grid0.Coords, EltTy.bits .f32 = 32 ∨ (Rect.block (s := S8192x256) S512x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x8192.size a
  hwx1_0 : ∀ i : grid1.Coords, EltTy.bits .f32 = 32 ∨ (Rect.block (s := S8192x8192) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S8192x256.size a
  hwx1_1 : ∀ i : grid1.Coords, EltTy.bits .f32 = 32 ∨ (Rect.block (s := S8192x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S8192x1.size a
  hwx1_2 : ∀ i : grid1.Coords, EltTy.bits .f32 = 32 ∨ (Rect.block (s := S8192x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S8192x256.size a
  hwx1_4 : ∀ i : grid1.Coords, EltTy.bits .f32 = 32 ∨ (Rect.block (s := S8192x256) S256x256.size (cc1_transform_4 i) (hinb1_4 i)).WholeWords (EltTy.packing .f32)

variable [Facts₀]

def scatter_S8192x256_S0_S8192x256_01_n_n_0 : ScatterDims S8192x256 S0 S8192x256 where
  updateWindowDims := [0, 1]
  insertedWindowDims := []
  scatterDimsToOperandDims := []
  indexVectorDim := 0
  wf := scatter_S8192x256_S0_S8192x256_01_n_n_0_wf
def scatter_S8192x8192_S0_S8192x8192_01_n_n_0 : ScatterDims S8192x8192 S0 S8192x8192 where
  updateWindowDims := [0, 1]
  insertedWindowDims := []
  scatterDimsToOperandDims := []
  indexVectorDim := 0
  wf := scatter_S8192x8192_S0_S8192x8192_01_n_n_0_wf
def scatter_S256x256_S0_S256x256_01_n_n_0 : ScatterDims S256x256 S0 S256x256 where
  updateWindowDims := [0, 1]
  insertedWindowDims := []
  scatterDimsToOperandDims := []
  indexVectorDim := 0
  wf := scatter_S256x256_S0_S256x256_01_n_n_0_wf
def scatter_S1x256_S1_S256_0_0_0_0 : ScatterDims S1x256 S1 S256 where
  updateWindowDims := [0]
  insertedWindowDims := [0]
  scatterDimsToOperandDims := [0]
  indexVectorDim := 0
  wf := scatter_S1x256_S1_S256_0_0_0_0_wf
def scatter_S8192x1_S1_S8192_0_1_1_0 : ScatterDims S8192x1 S1 S8192 where
  updateWindowDims := [0]
  insertedWindowDims := [1]
  scatterDimsToOperandDims := [1]
  indexVectorDim := 0
  wf := scatter_S8192x1_S1_S8192_0_1_1_0_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S512x256_S256x256_0_0_1_1_n_n : DotDims S512x256 S512x256 S256x256 where
  lhsContracting := [0]
  rhsContracting := [0]
  lhsNonContracting := [1]
  rhsNonContracting := [1]
  lhsBatch := []
  rhsBatch := []
  wf := dot_S512x256_S512x256_S256x256_0_0_1_1_n_n_wf

abbrev win0_0 : Pipeline.Window sig grid0 :=
  Pipeline.Window.ofSpec (Memref.whole main_call0_v6) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v10) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v16) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v17) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v8) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v17) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v16) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v13) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S256x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== Proof.Kernel.R0.lean ====
import proofs.«123510_g2000706009674355_pallasbulk_102_2_alg».proof.Proof.Gen.Kernel.Launch
import proofs.«123510_g2000706009674355_pallasbulk_102_2_alg».proof.Proof.Gen.Kernel.Skeleton
import proofs.«123510_g2000706009674355_pallasbulk_102_2_alg».proof.Proof.Gen.Kernel.Points
import Idealize.ShloMosaic.Lib.Pipeline.FrameBody
import Idealize.ShloMosaic.Lib.Ring
import Idealize.ShloMosaic.Lib.Tactic

/-! The column sums of g, accumulated over 32 blocks of 256 rows for each half of the columns; at the last block d = select (s > 0) (rsqrt s) 0. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
abbrev cond0_1 (i : grid0.Coords) : Prop := (Scalar.cmpi .ne (Scalar.extui (Scalar.cmpi .eq (BitVec.ofNat 32 (i 1).val) 31#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)
theorem hcond0_1 : ∀ t : Fin cfg0.N, cond0_1 (grid0.coords t) ↔ t.val % 32 = 31 :=
  (by decide +kernel : ∀ t : Fin grid0.N, cond0_1 (grid0.coords t) ↔ t.val % 32 = 31)

abbrev VO0_1 : View sig .tc .vmem S1x4096 .f32 := (Memref.whole cc0_stg1_0 : Memref sig .tc .vmem S1x4096 .f32).view

def outOf0 (L : List (View.Piece (Elt F) S1x4096 .f32)) : Vec F S1x4096 .f32 :=
  VO0_1.read (Elt F) (VO0_1.writes (Elt F) VO0_1.junk L)

section Body

variable (c : Dev nD) (i : grid0.Coords) {arg2 : Memref sig .tc .vmem S256x4096 .f32} (harg2 : arg2.IsWhole)
  {arg3 : Memref sig .tc .vmem S1x4096 .f32} (harg3 : arg3.IsWhole) (x0 : Vec F S256x4096 .f32)

def Run0 (P1 : sProp 𝕄) (L1 : List (View.Piece (Elt F) S1x4096 .f32)) : Prop :=
  ∀ (E : Set ℕ) (K : PUnit → sProp 𝕄),
    iprop(owns (c : Thread nD τ) arg2 fullShare x0 ∗ P1
        ∗ (iprop(owns (c : Thread nD τ) arg2 fullShare x0 ∗ (∃ f, arg3.view.loc (c : Thread nD τ) ↦[arg3.view.set]{fullShare} arg3.view.writes (Elt F) f L1)) -∗ K ⟨⟩))
      ⊢ wp frame (wpE (defs₀ (F := F)) Variants.none c none) E (cc0__dinv_kernel i arg2 harg2 arg3 harg3) K

set_option maxHeartbeats 1000000 in
noncomputable def kernelRun0_A (hc0 : cond0_0 i) (hc1 : ¬cond0_1 i) :
    { L1 // Run0 c i harg2 harg3 x0 iprop(∃ d, owns (c : Thread nD τ) arg3 fullShare d) L1 } := by
  refine ⟨?_, fun E K => ?run⟩
  case run =>
    simp only [cc0__dinv_kernel_eq_skeleton]; unfold cc0__dinv_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

variable (xo1 : Vec F S1x4096 .f32)

set_option maxHeartbeats 1000000 in
noncomputable def kernelRun0_B (hc0 : ¬cond0_0 i) (hc1 : ¬cond0_1 i) :
    { L1 // Run0 c i harg2 harg3 x0 (owns (c : Thread nD τ) arg3 fullShare xo1) L1 } := by
  refine ⟨?_, fun E K => ?run⟩
  case run =>
    simp only [cc0__dinv_kernel_eq_skeleton]; unfold cc0__dinv_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

set_option maxHeartbeats 1000000 in
noncomputable def kernelRun0_C (hc0 : ¬cond0_0 i) (hc1 : cond0_1 i) :
    { L1 // Run0 c i harg2 harg3 x0 (owns (c : Thread nD τ) arg3 fullShare xo1) L1 } := by
  refine ⟨?_, fun E K => ?run⟩
  case run =>
    simp only [cc0__dinv_kernel_eq_skeleton]; unfold cc0__dinv_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Body

abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)

noncomputable def runA0 (c : Dev nD) (t : Fin cfg0.N) (h0 : t.val % 32 = 0) :=
  kernelRun0_A c (grid0.coords t) (hs0_0 t) (hs0_1 t) (iblk0 V c 0 t) ((hcond0_0 t).mpr h0) (fun h => by have := (hcond0_1 t).mp h; omega)
noncomputable def runB0 (c : Dev nD) (t : Fin cfg0.N) (h0 : ¬t.val % 32 = 0) (h1 : ¬t.val % 32 = 31) (xo : Vec F S1x4096 .f32) :=
  kernelRun0_B c (grid0.coords t) (hs0_0 t) (hs0_1 t) (iblk0 V c 0 t) xo (fun h => h0 ((hcond0_0 t).mp h)) (fun h => h1 ((hcond0_1 t).mp h))
noncomputable def runC0 (c : Dev nD) (t : Fin cfg0.N) (h0 : ¬t.val % 32 = 0) (h1 : t.val % 32 = 31) (xo : Vec F S1x4096 .f32) :=
  kernelRun0_C c (grid0.coords t) (hs0_0 t) (hs0_1 t) (iblk0 V c 0 t) xo (fun h => h0 ((hcond0_0 t).mp h)) ((hcond0_1 t).mpr h1)

def outsAt0 (c : Dev nD) : (n : ℕ) → n < cfg0.N → Vec F S1x4096 .f32
  | 0, hn => outOf0 (runA0 V c ⟨0, hn⟩ (Nat.zero_mod _)).1
  | n + 1, hn =>
    if h0 : (n + 1) % 32 = 0 then outOf0 (runA0 V c ⟨n + 1, hn⟩ h0).1
    else if h1 : (n + 1) % 32 = 31 then outOf0 (runC0 V c ⟨n + 1, hn⟩ h0 h1 (outsAt0 c n (Nat.lt_of_succ_lt hn))).1
    else outOf0 (runB0 V c ⟨n + 1, hn⟩ h0 h1 (outsAt0 c n (Nat.lt_of_succ_lt hn))).1

abbrev prev0 (c : Dev nD) (t : Fin cfg0.N) : Vec F S1x4096 .f32 := outsAt0 V c (t.val - 1) (Nat.lt_of_le_of_lt (Nat.sub_le _ _) t.isLt)

theorem outsAt0_A (c : Dev nD) (t : Fin cfg0.N) (h0 : t.val % 32 = 0) : outsAt0 V c t.val t.isLt = outOf0 (runA0 V c t h0).1 := by
  obtain ⟨n, hn⟩ := t
  cases n with
  | zero => exact rfl
  | succ n => exact (dif_pos h0).trans rfl

theorem outsAt0_B (c : Dev nD) (t : Fin cfg0.N) (h0 : ¬t.val % 32 = 0) (h1 : ¬t.val % 32 = 31) :
    outsAt0 V c t.val t.isLt = outOf0 (runB0 V c t h0 h1 (prev0 V c t)).1 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 32 = 0) (h1 : t.val % 32 = 31) :
    outsAt0 V c t.val t.isLt = outOf0 (runC0 V c t h0 h1 (prev0 V c t)).1 := by
  obtain ⟨n, hn⟩ := t
  cases n with
  | zero => exact absurd (Nat.zero_mod _) h0
  | succ n => exact (dif_neg h0).trans ((dif_pos h1).trans rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_1 (c : Dev nD) (t : Fin cfg0.N) : (dat0 V c).after 1 t = outsAt0 V c t.val t.isLt := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => by unfold Dat.blockOf; dsimp only [dat0]; unfold iblk0; rfl) t d).trans
    (by unfold Dat.fetched Dat.blockOf; dsimp only [dat0]; unfold iblk0; rfl)

theorem before0_1_kept (c : Dev nD) (t : Fin cfg0.N) (h0 : ¬t.val % 32 = 0) (d) : (dat0 V c).before 1 t d = prev0 V c t := by
  have hN : t.val < 64 := lt_of_lt_of_eq t.isLt (show cfg0.N = 64 from N_0)
  rw [Dat.before_out_kept _ 1 rfl t (by omega) (Bool.eq_false_iff.mpr fun h => by have := (flush0_1 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) (o : Vec F S1x4096 .f32) : sProp 𝕄 :=
  iprop((dat0 V c).Φ t.castSucc ∗ (dat0 V c).owesAt () t.castSucc
    ∗ owns (c : Thread nD τ) (ms0_0 t) fullShare (iblk0 V c 0 t) ∗ owns (c : Thread nD τ) (ms0_1 t) fullShare o)

set_option maxHeartbeats 800000 in
theorem close0 (c : Dev nD) (t : Fin cfg0.N) {P1 : sProp 𝕄} {L1 : List (View.Piece (Elt F) S1x4096 .f32)}
    (hrun : Run0 c (grid0.coords t) (hs0_0 t) (hs0_1 t) (iblk0 V c 0 t) P1 L1) (hcov : ∀ y, ∃ pc ∈ L1, y ∈ pc.1.set)
    (hP : iprop(∃ d, owns (c : Thread nD τ) (ms0_1 t) fullShare ((dat0 V c).before 1 t d)) ⊢ P1) :
    bodyPre0 V c t ⊢ wp frame (wpE (defs₀ (F := F)) Variants.none c none) Set.univ (bodyAt0 t) (fun _ => bodyPost0 V c t (outOf0 L1)) := by
  unfold bodyPre0 bodyPost0 bodyAt0
  simp only [before0_0]
  iintro ⟨HΦ, Ho, ⟨%d0, H0⟩, H1⟩
  iapply (hrun Set.univ _)
  isplitl [H0]; · iexact H0
  isplitl [H1]; · iapply hP; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ hcov

theorem sound_body0 (c : Dev nD) (t : Fin cfg0.N) :
    bodyPre0 V c t ⊢ wp frame (wpE (defs₀ (F := F)) Variants.none c none) Set.univ (bodyAt0 t) (fun _ =>
      iprop((dat0 V c).Φ t.succ ∗ (dat0 V c).owesAt () t.succ
        ∗ owns (c : Thread nD τ) (ms0_0 t) fullShare ((dat0 V c).after 0 t)
        ∗ owns (c : Thread nD τ) (ms0_1 t) fullShare ((dat0 V c).after 1 t))) := by
  rw [show (dat0 V c).Φ t.succ = (dat0 V c).Φ t.castSucc from rfl,
    show (dat0 V c).owesAt () t.succ = (dat0 V c).owesAt () t.castSucc from rfl,
    show (dat0 V c).after 0 t = iblk0 V c 0 t from by dsimp only [dat0], after0_1]
  by_cases h0 : t.val % 32 = 0
  · rw [outsAt0_A V c t h0]
    refine close0 V c t (runA0 V c t h0).2 (View.cover_of_tiledL (runA0 V c t h0).1 S1x4096.size (by sl_kernel_rfl)) ?_
    iintro ⟨%d, H⟩; iexists _; iexact H
  · have hk : iprop(∃ d, owns (c : Thread nD τ) (ms0_1 t) fullShare ((dat0 V c).before 1 t d)) ⊢ (owns (c : Thread nD τ) (ms0_1 t) fullShare (prev0 V c t) : sProp 𝕄) := by
      simp only [before0_1_kept V c t h0]; iintro ⟨%d, H⟩; iexact H
    by_cases h1 : t.val % 32 = 31
    · rw [outsAt0_C V c t h0 h1]
      exact close0 V c t (runC0 V c t h0 h1 (prev0 V c t)).2 (View.cover_of_tiledL (runC0 V c t h0 h1 (prev0 V c t)).1 S1x4096.size (by sl_kernel_rfl)) hk
    · rw [outsAt0_B V c t h0 h1]
      exact close0 V c t (runB0 V c t h0 h1 (prev0 V c t)).2 (View.cover_of_tiledL (runB0 V c t h0 h1 (prev0 V c t)).1 S1x4096.size (by sl_kernel_rfl)) hk

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Pipeline.ΦA spec0 c from rfl]
theorem hout0 (c : Dev nD) : (dat0 V c).Φ (Fin.last cfg0.N) ⊢ Pipeline.ΦA spec0 c := by
  rw [show (dat0 V c).Φ (Fin.last cfg0.N) = Pipeline.ΦA spec0 c from rfl]

end Cert.Kernel.Hand

end
-- ==== Proof.Kernel.R1.lean ====
import proofs.«123510_g2000706009674355_pallasbulk_102_2_alg».proof.Proof.Gen.Kernel.Launch
import proofs.«123510_g2000706009674355_pallasbulk_102_2_alg».proof.Proof.Gen.Kernel.Skeleton
import proofs.«123510_g2000706009674355_pallasbulk_102_2_alg».proof.Proof.Gen.Kernel.Points
import Idealize.ShloMosaic.Lib.Pipeline.FrameBody
import Idealize.ShloMosaic.Lib.Tactic

/-! The scaled feature product d ⊙ (x · w) on a block of 512 rows at every point; nothing is carried between points. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S512x256 := Rect.unit (s := S512x256) ![0, 0] S512x256.size inb_S512x256_S512x256_0_0
abbrev r1_1 : Rect S256x256 := Rect.unit (s := S256x256) ![0, 0] S256x256.size inb_S256x256_S256x256_0_0
abbrev r1_2 : Rect S512x1 := Rect.unit (s := S512x1) ![0, 0] S512x1.size inb_S512x1_S512x1_0_0

def out1_3 (x0 : Vec F S512x256 .f32) (x1 : Vec F S256x256 .f32) (x2 : Vec F S512x1 .f32) : Vec F S512x256 .f32 :=
  View.canon [⟨r1_0, k1_pay1 (View.ld x0 r1_0) (View.ld x1 r1_1) (View.ld x2 r1_2)⟩]

set_option maxHeartbeats 1000000 in
theorem sound_kernel1 (c : Dev nD) (E : Set ℕ) (i : grid1.Coords)
    (arg0 : Memref sig .tc .vmem S512x256 .f32) (harg0 : arg0.IsWhole) (arg1 : Memref sig .tc .vmem S256x256 .f32) (harg1 : arg1.IsWhole)
    (arg2 : Memref sig .tc .vmem S512x1 .f32) (harg2 : arg2.IsWhole) (arg3 : Memref sig .tc .vmem S512x256 .f32) (harg3 : arg3.IsWhole)
    (x0 : Vec F S512x256 .f32) (x1 : Vec F S256x256 .f32) (x2 : Vec F S512x1 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__hs_kernel i arg0 harg0 arg1 harg1 arg2 harg2 arg3 harg3) K := by
  simp only [cc1__hs_kernel_eq_skeleton]; unfold cc1__hs_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ (View.cover_of_tiled _ S512x256.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => by unfold Dat.blockOf; dsimp only [dat1]; unfold iblk1; rfl) t d).trans
    (by unfold Dat.fetched Dat.blockOf; dsimp only [dat1]; unfold iblk1; rfl)
theorem before1_1 (c : Dev nD) (t : Fin cfg1.N) (d) : (dat1 V c).before 1 t d = iblk1 V c 1 t :=
  ((dat1 V c).before_in_eq_fetched 1 rfl (fun _ => rfl) (fun _ _ _ => rfl) (fun _ => by unfold Dat.blockOf; dsimp only [dat1]; unfold iblk1; rfl) t d).trans
    (by unfold Dat.fetched Dat.blockOf; dsimp only [dat1]; unfold iblk1; rfl)
theorem before1_2 (c : Dev nD) (t : Fin cfg1.N) (d) : (dat1 V c).before 2 t d = iblk1 V c 2 t :=
  ((dat1 V c).before_in_eq_fetched 2 rfl (fun _ => rfl) (fun _ _ _ => rfl) (fun _ => by unfold Dat.blockOf; dsimp only [dat1]; unfold iblk1; rfl) t d).trans
    (by unfold Dat.fetched Dat.blockOf; dsimp only [dat1]; unfold iblk1; rfl)

theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t))) := by
  unfold bodyAt1
  simp only [before1_0, before1_1, before1_2]
  rw [show (dat1 V c).Φ t.succ = (dat1 V c).Φ t.castSucc from rfl, show (dat1 V c).owesAt () t.succ = (dat1 V c).owesAt () t.castSucc from rfl]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Pipeline.ΦA spec1 c from rfl]

theorem hout1 (c : Dev nD) : (dat1 V c).Φ (Fin.last cfg1.N) ⊢ Pipeline.ΦA spec1 c := by
  rw [show (dat1 V c).Φ (Fin.last cfg1.N) = Pipeline.ΦA spec1 c from rfl]

end Cert.Kernel.Hand

end
-- ==== Proof.Kernel.R2.lean ====
import proofs.«123510_g2000706009674355_pallasbulk_102_2_alg».proof.Proof.Gen.Kernel.Launch
import proofs.«123510_g2000706009674355_pallasbulk_102_2_alg».proof.Proof.Gen.Kernel.Skeleton
import proofs.«123510_g2000706009674355_pallasbulk_102_2_alg».proof.Proof.Gen.Kernel.Points
import Idealize.ShloMosaic.Lib.Pipeline.FrameBody
import Idealize.ShloMosaic.Lib.Ring
import Idealize.ShloMosaic.Lib.Tactic

/-! The aggregation d ⊙ (gᵀ · hs) + b: every block of 512 output rows is a sum over 16 steps, scaled and shifted at the last. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := k2_cond1 i = 1#1
abbrev cond2_1 (i : grid2.Coords) : Prop := k2_cond2 i = 1#1
abbrev cond2_2 (i : grid2.Coords) : Prop := k2_cond3 i = 1#1

theorem hcond2_0 : ∀ t : Fin cfg2.N, cond2_0 (grid2.coords t) ↔ t.val % 16 = 0 :=
  (by decide +kernel : ∀ t : Fin grid2.N, cond2_0 (grid2.coords t) ↔ t.val % 16 = 0)
theorem hcond2_1 : ∀ t : Fin cfg2.N, cond2_1 (grid2.coords t) ↔ t.val % 16 ≠ 0 :=
  (by decide +kernel : ∀ t : Fin grid2.N, cond2_1 (grid2.coords t) ↔ t.val % 16 ≠ 0)
theorem hcond2_2 : ∀ t : Fin cfg2.N, cond2_2 (grid2.coords t) ↔ t.val % 16 = 15 :=
  (by decide +kernel : ∀ t : Fin grid2.N, cond2_2 (grid2.coords t) ↔ t.val % 16 = 15)

theorem hlive2_4 : ∀ i : grid2.Coords, cfg2.idle 4 i = false := by
  intro i
  have h : ∀ k : Fin 16,
      (!(Scalar.cmpi .ne (Scalar.extui (Scalar.cmpi .eq (BitVec.ofNat 32 k.val) 0#32)) 0#32 == 1#1)
        && !(Scalar.cmpi .ne (Scalar.extui (Scalar.cmpi .sgt (BitVec.ofNat 32 k.val) 0#32)) 0#32 == 1#1)
        && !(Scalar.cmpi .ne (Scalar.extui (Scalar.cmpi .eq (BitVec.ofNat 32 k.val) 15#32)) 0#32 == 1#1)) = false := by
    decide
  exact h (i 1)

abbrev VO2_4 : View sig .tc .vmem S512x256 .f32 := (Memref.whole cc2_stg4_0 : Memref sig .tc .vmem S512x256 .f32).view

def outOf2 (L : List (View.Piece (Elt F) S512x256 .f32)) : Vec F S512x256 .f32 :=
  VO2_4.read (Elt F) (VO2_4.writes (Elt F) VO2_4.junk L)

section Body

variable (c : Dev nD) (i : grid2.Coords)
  {arg2 : Memref sig .tc .vmem S512x512 .f32} (harg2 : arg2.IsWhole) {arg3 : Memref sig .tc .vmem S8192x256 .f32} (harg3 : arg3.IsWhole)
  {arg4 : Memref sig .tc .vmem S512x1 .f32} (harg4 : arg4.IsWhole) {arg5 : Memref sig .tc .vmem S1x256 .f32} (harg5 : arg5.IsWhole)
  {arg6 : Memref sig .tc .vmem S512x256 .f32} (harg6 : arg6.IsWhole)
  (x0 : Vec F S512x512 .f32) (x1 : Vec F S8192x256 .f32) (x2 : Vec F S512x1 .f32) (x3 : Vec F S1x256 .f32)

def Run2 (P6 : sProp 𝕄) (L4 : List (View.Piece (Elt F) S512x256 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ P6
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
      ⊢ wp frame (wpE (defs₀ (F := F)) Variants.none c none) E (cc2__agg_kernel i arg2 harg2 arg3 harg3 arg4 harg4 arg5 harg5 arg6 harg6) K

set_option maxHeartbeats 1000000 in
noncomputable def kernelRun2_A (hc0 : cond2_0 i) (hc1 : ¬cond2_1 i) (hc2 : ¬cond2_2 i) :
    { L4 // Run2 c i harg2 harg3 harg4 harg5 harg6 x0 x1 x2 x3 iprop(∃ d, owns (c : Thread nD τ) arg6 fullShare d) L4 } := by
  refine ⟨?_, fun E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

variable (xo4 : Vec F S512x256 .f32)

set_option maxHeartbeats 1000000 in
noncomputable def kernelRun2_B (hc0 : ¬cond2_0 i) (hc1 : cond2_1 i) (hc2 : ¬cond2_2 i) :
    { L4 // Run2 c i harg2 harg3 harg4 harg5 harg6 x0 x1 x2 x3 (owns (c : Thread nD τ) arg6 fullShare xo4) L4 } := by
  refine ⟨?_, fun E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
noncomputable def kernelRun2_C (hc0 : ¬cond2_0 i) (hc1 : cond2_1 i) (hc2 : cond2_2 i) :
    { L4 // Run2 c i harg2 harg3 harg4 harg5 harg6 x0 x1 x2 x3 (owns (c : Thread nD τ) arg6 fullShare xo4) L4 } := by
  refine ⟨?_, fun E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Body

abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x256 .f32 := win2_4.stage (cfg2.slots t 4)
abbrev hs2_4 (t : Fin cfg2.N) : (ms2_4 t).IsWhole := hstage2_4 ((cfg2.slots t 4).cast nbuf2_4)

theorem hC0 (t : Fin cfg2.N) (h2 : t.val % 16 = 15) : ¬t.val % 16 = 0 := by omega

noncomputable def runA2 (c : Dev nD) (t : Fin cfg2.N) (h0 : t.val % 16 = 0) :=
  kernelRun2_A c (grid2.coords t) (hs2_0 t) (hs2_1 t) (hs2_2 t) (hs2_3 t) (hs2_4 t) (iblk2 V c 0 t) (iblk2 V c 1 t) (iblk2 V c 2 t) (iblk2 V c 3 t) ((hcond2_0 t).mpr h0) (fun h => (hcond2_1 t).mp h h0) (fun h => by have := (hcond2_2 t).mp h; omega)
noncomputable def runB2 (c : Dev nD) (t : Fin cfg2.N) (h0 : ¬t.val % 16 = 0) (h2 : ¬t.val % 16 = 15) (xo : Vec F S512x256 .f32) :=
  kernelRun2_B c (grid2.coords t) (hs2_0 t) (hs2_1 t) (hs2_2 t) (hs2_3 t) (hs2_4 t) (iblk2 V c 0 t) (iblk2 V c 1 t) (iblk2 V c 2 t) (iblk2 V c 3 t) xo (fun h => h0 ((hcond2_0 t).mp h)) ((hcond2_1 t).mpr h0) (fun h => h2 ((hcond2_2 t).mp h))
noncomputable def runC2 (c : Dev nD) (t : Fin cfg2.N) (h2 : t.val % 16 = 15) (xo : Vec F S512x256 .f32) :=
  kernelRun2_C c (grid2.coords t) (hs2_0 t) (hs2_1 t) (hs2_2 t) (hs2_3 t) (hs2_4 t) (iblk2 V c 0 t) (iblk2 V c 1 t) (iblk2 V c 2 t) (iblk2 V c 3 t) xo (fun h => hC0 t h2 ((hcond2_0 t).mp h)) ((hcond2_1 t).mpr (hC0 t h2)) ((hcond2_2 t).mpr h2)

def outsAt2 (c : Dev nD) : (n : ℕ) → n < cfg2.N → Vec F S512x256 .f32
  | 0, hn => outOf2 (runA2 V c ⟨0, hn⟩ (Nat.zero_mod _)).1
  | n + 1, hn =>
    if h0 : (n + 1) % 16 = 0 then outOf2 (runA2 V c ⟨n + 1, hn⟩ h0).1
    else if h2 : (n + 1) % 16 = 15 then outOf2 (runC2 V c ⟨n + 1, hn⟩ h2 (outsAt2 c n (Nat.lt_of_succ_lt hn))).1
    else outOf2 (runB2 V c ⟨n + 1, hn⟩ h0 h2 (outsAt2 c n (Nat.lt_of_succ_lt hn))).1

abbrev prev2 (c : Dev nD) (t : Fin cfg2.N) : Vec F S512x256 .f32 := outsAt2 V c (t.val - 1) (Nat.lt_of_le_of_lt (Nat.sub_le _ _) t.isLt)

theorem outsAt2_A (c : Dev nD) (t : Fin cfg2.N) (h0 : t.val % 16 = 0) : outsAt2 V c t.val t.isLt = outOf2 (runA2 V c t h0).1 := by
  obtain ⟨n, hn⟩ := t
  cases n with
  | zero => exact rfl
  | succ n => exact (dif_pos h0).trans rfl

theorem outsAt2_B (c : Dev nD) (t : Fin cfg2.N) (h0 : ¬t.val % 16 = 0) (h2 : ¬t.val % 16 = 15) :
    outsAt2 V c t.val t.isLt = outOf2 (runB2 V c t h0 h2 (prev2 V c t)).1 := by
  obtain ⟨n, hn⟩ := t
  cases n with
  | zero => exact absurd (Nat.zero_mod _) h0
  | succ n => exact (dif_neg h0).trans ((dif_neg h2).trans rfl)

theorem outsAt2_C (c : Dev nD) (t : Fin cfg2.N) (h2 : t.val % 16 = 15) :
    outsAt2 V c t.val t.isLt = outOf2 (runC2 V c t h2 (prev2 V c t)).1 := by
  obtain ⟨n, hn⟩ := t
  cases n with
  | zero => exact (by exfalso; (try dsimp only at h2); omega)
  | succ n => exact (dif_neg (hC0 ⟨n + 1, hn⟩ h2)).trans ((dif_pos h2).trans rfl)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = outsAt2 V c t.val t.isLt := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => by unfold Dat.blockOf; dsimp only [dat2]; unfold iblk2; rfl) t d).trans
    (by unfold Dat.fetched Dat.blockOf; dsimp only [dat2]; unfold iblk2; rfl)
theorem before2_1 (c : Dev nD) (t : Fin cfg2.N) (d) : (dat2 V c).before 1 t d = iblk2 V c 1 t :=
  ((dat2 V c).before_in_eq_fetched 1 rfl (fun _ => rfl) (fun _ _ _ => rfl) (fun _ => by unfold Dat.blockOf; dsimp only [dat2]; unfold iblk2; rfl) t d).trans
    (by unfold Dat.fetched Dat.blockOf; dsimp only [dat2]; unfold iblk2; rfl)
theorem before2_2 (c : Dev nD) (t : Fin cfg2.N) (d) : (dat2 V c).before 2 t d = iblk2 V c 2 t :=
  ((dat2 V c).before_in_eq_fetched 2 rfl (fun _ => rfl) (fun _ _ _ => rfl) (fun _ => by unfold Dat.blockOf; dsimp only [dat2]; unfold iblk2; rfl) t d).trans
    (by unfold Dat.fetched Dat.blockOf; dsimp only [dat2]; unfold iblk2; rfl)
theorem before2_3 (c : Dev nD) (t : Fin cfg2.N) (d) : (dat2 V c).before 3 t d = iblk2 V c 3 t :=
  ((dat2 V c).before_in_eq_fetched 3 rfl (fun _ => rfl) (fun _ _ _ => rfl) (fun _ => by unfold Dat.blockOf; dsimp only [dat2]; unfold iblk2; rfl) t d).trans
    (by unfold Dat.fetched Dat.blockOf; dsimp only [dat2]; unfold iblk2; rfl)

theorem before2_4_kept (c : Dev nD) (t : Fin cfg2.N) (h0 : ¬t.val % 16 = 0) (d) : (dat2 V c).before 4 t d = prev2 V c t := by
  have hN : t.val < 256 := lt_of_lt_of_eq t.isLt (show cfg2.N = 256 from N_2)
  rw [Dat.before_out_kept _ 4 rfl t (by omega) (Bool.eq_false_iff.mpr fun h => by have := (flush2_4 _).mp h; dsimp only at this; omega)
    hlive2_4 (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) (o : Vec F S512x256 .f32) : sProp 𝕄 :=
  iprop((dat2 V c).Φ t.castSucc ∗ (dat2 V c).owesAt () t.castSucc
    ∗ owns (c : Thread nD τ) (ms2_0 t) fullShare (iblk2 V c 0 t) ∗ owns (c : Thread nD τ) (ms2_1 t) fullShare (iblk2 V c 1 t)
    ∗ owns (c : Thread nD τ) (ms2_2 t) fullShare (iblk2 V c 2 t) ∗ owns (c : Thread nD τ) (ms2_3 t) fullShare (iblk2 V c 3 t)
    ∗ owns (c : Thread nD τ) (ms2_4 t) fullShare o)

set_option maxHeartbeats 1600000 in
theorem close2 (c : Dev nD) (t : Fin cfg2.N) {P6 : sProp 𝕄} {L4 : List (View.Piece (Elt F) S512x256 .f32)}
    (hrun : Run2 c (grid2.coords t) (hs2_0 t) (hs2_1 t) (hs2_2 t) (hs2_3 t) (hs2_4 t) (iblk2 V c 0 t) (iblk2 V c 1 t) (iblk2 V c 2 t) (iblk2 V c 3 t) P6 L4)
    (hcov : ∀ y, ∃ pc ∈ L4, y ∈ pc.1.set)
    (hP : iprop(∃ d, owns (c : Thread nD τ) (ms2_4 t) fullShare ((dat2 V c).before 4 t d)) ⊢ P6) :
    bodyPre2 V c t ⊢ wp frame (wpE (defs₀ (F := F)) Variants.none c none) Set.univ (bodyAt2 t) (fun _ => bodyPost2 V c t (outOf2 L4)) := by
  unfold bodyPre2 bodyPost2 bodyAt2
  simp only [before2_0, before2_1, before2_2, before2_3]
  iintro ⟨HΦ, Ho, ⟨%d0, H0⟩, ⟨%d1, H1⟩, ⟨%d2, H2⟩, ⟨%d3, H3⟩, H4⟩
  iapply (hrun Set.univ _)
  isplitl [H0]; · iexact H0
  isplitl [H1]; · iexact H1
  isplitl [H2]; · iexact H2
  isplitl [H3]; · iexact H3
  isplitl [H4]; · iapply hP; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ hcov

theorem sound_body2 (c : Dev nD) (t : Fin cfg2.N) :
    bodyPre2 V c t ⊢ wp frame (wpE (defs₀ (F := F)) Variants.none c none) Set.univ (bodyAt2 t) (fun _ =>
      iprop((dat2 V c).Φ t.succ ∗ (dat2 V c).owesAt () t.succ
        ∗ owns (c : Thread nD τ) (ms2_0 t) fullShare ((dat2 V c).after 0 t)
        ∗ owns (c : Thread nD τ) (ms2_1 t) fullShare ((dat2 V c).after 1 t)
        ∗ owns (c : Thread nD τ) (ms2_2 t) fullShare ((dat2 V c).after 2 t)
        ∗ owns (c : Thread nD τ) (ms2_3 t) fullShare ((dat2 V c).after 3 t)
        ∗ (dat2 V c).leavesExact 4 t)) := by
  rw [show (dat2 V c).Φ t.succ = (dat2 V c).Φ t.castSucc from rfl,
    show (dat2 V c).owesAt () t.succ = (dat2 V c).owesAt () t.castSucc from rfl,
    show (dat2 V c).leavesExact 4 t = owns (c : Thread nD τ) (ms2_4 t) fullShare ((dat2 V c).after 4 t) from by
      unfold Dat.leavesExact; rw [hlive2_4 (grid2.coords t)],
    show (dat2 V c).after 0 t = iblk2 V c 0 t from by dsimp only [dat2], show (dat2 V c).after 1 t = iblk2 V c 1 t from by dsimp only [dat2],
    show (dat2 V c).after 2 t = iblk2 V c 2 t from by dsimp only [dat2], show (dat2 V c).after 3 t = iblk2 V c 3 t from by dsimp only [dat2], after2_4]
  by_cases h0 : t.val % 16 = 0
  · rw [outsAt2_A V c t h0]
    refine close2 V c t (runA2 V c t h0).2 (View.cover_of_tiledL (runA2 V c t h0).1 S512x256.size (by sl_kernel_rfl)) ?_
    iintro ⟨%d, H⟩; iexists _; iexact H
  · have hk : iprop(∃ d, owns (c : Thread nD τ) (ms2_4 t) fullShare ((dat2 V c).before 4 t d)) ⊢ (owns (c : Thread nD τ) (ms2_4 t) fullShare (prev2 V c t) : sProp 𝕄) := by
      simp only [before2_4_kept V c t h0]; iintro ⟨%d, H⟩; iexact H
    by_cases h2 : t.val % 16 = 15
    · rw [outsAt2_C V c t h2]
      exact close2 V c t (runC2 V c t h2 (prev2 V c t)).2 (View.cover_of_tiledL (runC2 V c t h2 (prev2 V c t)).1 S512x256.size (by sl_kernel_rfl)) hk
    · rw [outsAt2_B V c t h0 h2]
      exact close2 V c t (runB2 V c t h0 h2 (prev2 V c t)).2 (View.cover_of_tiledL (runB2 V c t h0 h2 (prev2 V c t)).1 S512x256.size (by sl_kernel_rfl)) hk

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Pipeline.ΦA spec2 c from rfl]
theorem hout2 (c : Dev nD) : (dat2 V c).Φ (Fin.last cfg2.N) ⊢ Pipeline.ΦA spec2 c := by
  rw [show (dat2 V c).Φ (Fin.last cfg2.N) = Pipeline.ΦA spec2 c from rfl]

end Cert.Kernel.Hand

end
-- ==== Proof.Kernel.Run.lean ====
import proofs.«123510_g2000706009674355_pallasbulk_102_2_alg».proof.Proof.Gen.Kernel.Regions
import proofs.«123510_g2000706009674355_pallasbulk_102_2_alg».proof.Proof.Kernel.R0
import proofs.«123510_g2000706009674355_pallasbulk_102_2_alg».proof.Proof.Kernel.R1
import proofs.«123510_g2000706009674355_pallasbulk_102_2_alg».proof.Proof.Kernel.R2
import Idealize.ShloMosaic.Lib.Pipeline.RegionsLoop
import Idealize.ShloMosaic.Lib.Pipeline.FrameSuffix

/-! The program's regions in order: what each leaves is what the next finds. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev atTc (W : Dev nD → Valuation τ sig (Elt F)) : (c : Dev nD) → (b : Ref sig .tc) → Buf (Elt F) ((c : Thread nD τ).loc b) :=
  fun c b => W c b

def outsA : Outs (F := F) := fun _ r c => m ((c : Thread nD τ).loc r)

def X2 (c : Dev nD) : Valuation τ sig (Elt F) :=
  Pipeline.withArrays spec0 c (V1 m c) fun w => (dat0 (atTc (V1 m)) c).arrAt w cfg0.N

def outsB : Outs (F := F)
  | 2 => fun r c => X2 m c r
  | n => outsA m n

def X4 (c : Dev nD) : Valuation τ sig (Elt F) :=
  Pipeline.withArrays spec1 c (V3 m (outsB m) c) fun w => (dat1 (atTc (V3 m (outsB m))) c).arrAt w cfg1.N

def outsC : Outs (F := F)
  | 2 => fun r c => X2 m c r
  | 4 => fun r c => X4 m c r
  | n => outsA m n

def X5 (c : Dev nD) : Valuation τ sig (Elt F) :=
  Pipeline.withArrays spec2 c (V4 m (outsC m) c) fun w => (dat2 (atTc (V4 m (outsC m))) c).arrAt w cfg2.N

def outsD : Outs (F := F)
  | 2 => fun r c => X2 m c r
  | 4 => fun r c => X4 m c r
  | 5 => fun r c => X5 m c r
  | n => outsA m n

theorem V3_D (c : Dev nD) : V3 m (outsD m) c = V3 m (outsB m) c := rfl
theorem V4_D (c : Dev nD) : V4 m (outsD m) c = V4 m (outsC m) c := rfl

abbrev 𝒱₀ : Variants := Variants.none

abbrev L : GSem nD τ sig → Finset Unit := fun _ => ∅
abbrev lv : GSem nD τ sig → Unit → ℕ := fun _ _ => 0

abbrev Rest (c : Dev nD) : sProp 𝕄 := iprop((∃ r, prngReg c r) ∗ ∃ W, owes (c : Thread nD τ) (0 : CellTallies nD τ sig Unit) W)
abbrev E : Fin 4 → Dev nD → sProp 𝕄 := fun _ c => Rest (F := F) c

def pdats : (p : Fin 3) → (c : Dev nD) → Dat τ (Elt F) Unit ℕ (UR sig nD τ) ℕ (cfgs p) c
  | ⟨0, _⟩ => fun c => dat0 (atTc (V1 m)) c
  | ⟨1, _⟩ => fun c => dat1 (atTc (V3 m (outsB m))) c
  | ⟨2, _⟩ => fun c => dat2 (atTc (V4 m (outsC m))) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def mkReg (p : Fin 3) (lf : Pipeline.LaunchFacts (nD := nD) (τ := τ) cfgs p) (Vi Vo : (c : Dev nD) → Valuation τ sig (Elt F))
    (hb : ∀ c, BodyObligation (pdats m p c) (defs₀ (F := F)) 𝒱₀ () Set.univ)
    (hq : ∀ c w, (pdats m p c).q w = fullShare) (ho : ∀ c t, (pdats m p c).owed t = 0) (hrec : ∀ c, (pdats m p c).recorded 0 = Set.univ)
    (hA : ∀ c w, (pdats m p c).A w = atTc Vi c (Pipeline.arrRef (cfgs p).spec w))
    (hin : ∀ c, Pipeline.ΦA (cfgs p).spec c ⊢ (pdats m p c).Φ 0)
    (hout : ∀ c, (pdats m p c).Φ (Fin.last (cfgs p).N) ⊢ Pipeline.ΦA (cfgs p).spec c)
    (hF : ∀ c w, (pdats m p c).arrAt w (cfgs p).N = atTc Vo c (Pipeline.arrRef (cfgs p).spec w))
    (hrest : ∀ c b, b ∉ Finset.univ.image (Pipeline.arrRef (cfgs p).spec) → atTc Vo c b = atTc Vi c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Vi c) ∗ (∃ r, prngReg c r) ∗ ∃ W, owes (c : Thread nD τ) (0 : CellTallies nD τ sig Unit) W)
  post c := iprop(StableHlo.held (c : Thread nD τ) (Pipeline.ucRefs τ sig) (Vo c) ∗ (∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) (cfgs p).spec c (atTc Vi c)
  hentry c := by
    rw [Pipeline.ownSems0_none]
    have hsplit := Pipeline.arrays_of_unscopedBufs (p := p) (pcfgs (F := F)) adm (pdats m) lf.win lf.arr_whole c
      ((pdats m p c).share_full (hq c)) (atTc Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c]
      icases HO with ⟨%W, HO⟩; iexists W; isplitr; · ipureintro; exact fun _ _ => Or.inl (hrec c ▸ trivial)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atTc Vi c) (atTc Vo c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c]
    icases HO with ⟨%W, -, HO⟩; iexists W; iexact HO

theorem hF0 (c : Dev nD) (w : Fin cfg0.W) :
    (pdats m 0 c).arrAt w cfg0.N = atTc (V2 m (outsD m)) c (Pipeline.arrRef spec0 w) := by
  match w with
  | ⟨0, _⟩ =>
    exact (((pdats m 0 c).arrAt_in 0 rfl _).trans (A_eq0 (atTc (V1 m)) c 0)).trans (V2_of m (outsD m) c main_arg1 (by decide)).symm
  | ⟨1, _⟩ =>
    show _ = Function.update (V1 m c) main_call0_v0 (outsD m 2 main_call0_v0 c) main_call0_v0
    rw [Function.update_self]
    show (dat0 (atTc (V1 m)) c).arrAt 1 cfg0.N = X2 m c (Proc.devRef .tc main_call0_v0)
    unfold X2
    exact (Pipeline.withArrays_arr spec0 launch0.win.arr_inj c (V1 m c) (fun w => (dat0 (atTc (V1 m)) c).arrAt w cfg0.N) 1).symm

theorem hrest0 (c : Dev nD) : ∀ b, b ∉ Finset.univ.image (Pipeline.arrRef spec0) → atTc (V2 m (outsD m)) c b = atTc (V1 m) c b :=
  fun b hb => V2_of m (outsD m) c b fun h =>
    hb (Finset.mem_image.mpr ⟨1, Finset.mem_univ _, (List.mem_singleton.mp h).symm⟩)

theorem hF1 (c : Dev nD) (w : Fin cfg1.W) :
    (pdats m 1 c).arrAt w cfg1.N = atTc (V4 m (outsD m)) c (Pipeline.arrRef spec1 w) := by
  match w with
  | ⟨0, _⟩ =>
    exact (((pdats m 1 c).arrAt_in 0 rfl _).trans (A_eq1 (atTc (V3 m (outsB m))) c 0)).trans (V4_of m (outsD m) c main_arg0 (by decide)).symm
  | ⟨1, _⟩ =>
    exact (((pdats m 1 c).arrAt_in 1 rfl _).trans (A_eq1 (atTc (V3 m (outsB m))) c 1)).trans (V4_of m (outsD m) c main_arg2 (by decide)).symm
  | ⟨2, _⟩ =>
    exact (((pdats m 1 c).arrAt_in 2 rfl _).trans (A_eq1 (atTc (V3 m (outsB m))) c 2)).trans (V4_of m (outsD m) c main_call0_v1 (by decide)).symm
  | ⟨3, _⟩ =>
    show _ = Function.update (V3 m (outsD m) c) main_call0_v2 (outsD m 4 main_call0_v2 c) main_call0_v2
    rw [Function.update_self]
    show (dat1 (atTc (V3 m (outsB m))) c).arrAt 3 cfg1.N = X4 m c (Proc.devRef .tc main_call0_v2)
    unfold X4
    exact (Pipeline.withArrays_arr spec1 launch1.win.arr_inj c (V3 m (outsB m) c) (fun w => (dat1 (atTc (V3 m (outsB m))) c).arrAt w cfg1.N) 3).symm

theorem hrest1 (c : Dev nD) : ∀ b, b ∉ Finset.univ.image (Pipeline.arrRef spec1) → atTc (V4 m (outsD m)) c b = atTc (V3 m (outsB m)) c b :=
  fun b hb => V4_of m (outsD m) c b fun h =>
    hb (Finset.mem_image.mpr ⟨3, Finset.mem_univ _, (List.mem_singleton.mp h).symm⟩)

theorem hF2 (c : Dev nD) (w : Fin cfg2.W) :
    (pdats m 2 c).arrAt w cfg2.N = atTc (V5 m (outsD m)) c (Pipeline.arrRef spec2 w) := by
  match w with
  | ⟨0, _⟩ =>
    exact (((pdats m 2 c).arrAt_in 0 rfl _).trans (A_eq2 (atTc (V4 m (outsC m))) c 0)).trans (V5_of m (outsD m) c main_arg1 (by decide)).symm
  | ⟨1, _⟩ =>
    exact (((pdats m 2 c).arrAt_in 1 rfl _).trans (A_eq2 (atTc (V4 m (outsC m))) c 1)).trans (V5_of m (outsD m) c main_call0_v2 (by decide)).symm
  | ⟨2, _⟩ =>
    exact (((pdats m 2 c).arrAt_in 2 rfl _).trans (A_eq2 (atTc (V4 m (outsC m))) c 2)).trans (V5_of m (outsD m) c main_call0_v1 (by decide)).symm
  | ⟨3, _⟩ =>
    exact (((pdats m 2 c).arrAt_in 3 rfl _).trans (A_eq2 (atTc (V4 m (outsC m))) c 3)).trans (V5_of m (outsD m) c main_v0 (by decide)).symm
  | ⟨4, _⟩ =>
    show _ = Function.update (V4 m (outsD m) c) main_v1 (outsD m 5 main_v1 c) main_v1
    rw [Function.update_self]
    show (dat2 (atTc (V4 m (outsC m))) c).arrAt 4 cfg2.N = X5 m c (Proc.devRef .tc main_v1)
    unfold X5
    exact (Pipeline.withArrays_arr spec2 launch2.win.arr_inj c (V4 m (outsC m) c) (fun w => (dat2 (atTc (V4 m (outsC m))) c).arrAt w cfg2.N) 4).symm

theorem hrest2 (c : Dev nD) : ∀ b, b ∉ Finset.univ.image (Pipeline.arrRef spec2) → atTc (V5 m (outsD m)) c b = atTc (V4 m (outsC m)) c b :=
  fun b hb => V5_of m (outsD m) c b fun h =>
    hb (Finset.mem_image.mpr ⟨4, Finset.mem_univ _, (List.mem_singleton.mp h).symm⟩)

def reg0 : Pipeline.RegionSeg (pcfgs (F := F)) adm (pdats m) () defs₀ 𝒱₀ L lv 0 :=
  mkReg m 0 launch0 (V1 m) (V2 m (outsD m)) (body_obligation0 (atTc (V1 m))) (fun _ _ => rfl) (fun _ _ => rfl) (fun _ => rfl)
    (A_eq0 (atTc (V1 m))) (hin0 (atTc (V1 m))) (hout0 (atTc (V1 m))) (hF0 m) (hrest0 m)

def reg1 : Pipeline.RegionSeg (pcfgs (F := F)) adm (pdats m) () defs₀ 𝒱₀ L lv 1 :=
  mkReg m 1 launch1 (V3 m (outsB m)) (V4 m (outsD m)) (body_obligation1 (atTc (V3 m (outsB m)))) (fun _ _ => rfl) (fun _ _ => rfl) (fun _ => rfl)
    (A_eq1 (atTc (V3 m (outsB m)))) (hin1 (atTc (V3 m (outsB m)))) (hout1 (atTc (V3 m (outsB m)))) (hF1 m) (hrest1 m)

def reg2 : Pipeline.RegionSeg (pcfgs (F := F)) adm (pdats m) () defs₀ 𝒱₀ L lv 2 :=
  mkReg m 2 launch2 (V4 m (outsC m)) (V5 m (outsD m)) (body_obligation2 (atTc (V4 m (outsC m)))) (fun _ _ => rfl) (fun _ _ => rfl) (fun _ => rfl)
    (A_eq2 (atTc (V4 m (outsC m)))) (hin2 (atTc (V4 m (outsC m)))) (hout2 (atTc (V4 m (outsC m)))) (hF2 m) (hrest2 m)

abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE3 (c : Dev nD) : E (F := F) 3 c ⊢ (iprop(∃ W, owes (c : Thread nD τ) (0 : CellTallies nD τ sig Unit) W) : sProp 𝕄) := by
  iintro ⟨-, HO⟩; iexact HO

set_option backward.isDefEq.respectTransparency.types false in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m (EP := emb₁) (ι := ()) (𝒱₀ := 𝒱₀) (L := L) (lv := lv) (hL := fun _ _ => rfl) (ρ := ρ) (outs := outsD m) (pdats := pdats m)
    (O₀ := 0) (G := fun _ => iprop(emp)) (u₀ := u₀) (hu₀ := hu₀) (E := E) (hE0 := hE0 ρ) (hE3 := hE3)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)

end Cert.Kernel.Hand

end
-- ==== Proof.KernelIdeal.R0.lean ====
import proofs.«123510_g2000706009674355_pallasbulk_102_2_alg».proof.Proof.Gen.KernelIdeal.Launch
import proofs.«123510_g2000706009674355_pallasbulk_102_2_alg».proof.Proof.Gen.KernelIdeal.Skeleton
import proofs.«123510_g2000706009674355_pallasbulk_102_2_alg».proof.Proof.Gen.KernelIdeal.Points
import Idealize.ShloMosaic.Lib.Pipeline.FrameBody
import Idealize.ShloMosaic.Lib.Ring
import Idealize.ShloMosaic.Lib.Tactic

/-! The column sums of g, accumulated over 32 blocks of 256 rows for each half of the columns; at the last block d = select (s > 0) (rsqrt s) 0. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
abbrev cond0_1 (i : grid0.Coords) : Prop := (Scalar.cmpi .ne (Scalar.extui (Scalar.cmpi .eq (BitVec.ofNat 32 (i 1).val) 31#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)
theorem hcond0_1 : ∀ t : Fin cfg0.N, cond0_1 (grid0.coords t) ↔ t.val % 32 = 31 :=
  (by decide +kernel : ∀ t : Fin grid0.N, cond0_1 (grid0.coords t) ↔ t.val % 32 = 31)

abbrev VO0_1 : View sig .tc .vmem S1x4096 .f32 := (Memref.whole cc0_stg1_0 : Memref sig .tc .vmem S1x4096 .f32).view

def outOf0 (L : List (View.Piece (Elt F) S1x4096 .f32)) : Vec F S1x4096 .f32 :=
  VO0_1.read (Elt F) (VO0_1.writes (Elt F) VO0_1.junk L)

section Body

variable (c : Dev nD) (i : grid0.Coords) {arg2 : Memref sig .tc .vmem S256x4096 .f32} (harg2 : arg2.IsWhole)
  {arg3 : Memref sig .tc .vmem S1x4096 .f32} (harg3 : arg3.IsWhole) (x0 : Vec F S256x4096 .f32)

def Run0 (P1 : sProp 𝕄) (L1 : List (View.Piece (Elt F) S1x4096 .f32)) : Prop :=
  ∀ (E : Set ℕ) (K : PUnit → sProp 𝕄),
    iprop(owns (c : Thread nD τ) arg2 fullShare x0 ∗ P1
        ∗ (iprop(owns (c : Thread nD τ) arg2 fullShare x0 ∗ (∃ f, arg3.view.loc (c : Thread nD τ) ↦[arg3.view.set]{fullShare} arg3.view.writes (Elt F) f L1)) -∗ K ⟨⟩))
      ⊢ wp frame (wpE (defs₀ (F := F)) Variants.none c none) E (cc0__dinv_kernel i arg2 harg2 arg3 harg3) K

set_option maxHeartbeats 1000000 in
noncomputable def kernelRun0_A (hc0 : cond0_0 i) (hc1 : ¬cond0_1 i) :
    { L1 // Run0 c i harg2 harg3 x0 iprop(∃ d, owns (c : Thread nD τ) arg3 fullShare d) L1 } := by
  refine ⟨?_, fun E K => ?run⟩
  case run =>
    simp only [cc0__dinv_kernel_eq_skeleton]; unfold cc0__dinv_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

variable (xo1 : Vec F S1x4096 .f32)

set_option maxHeartbeats 1000000 in
noncomputable def kernelRun0_B (hc0 : ¬cond0_0 i) (hc1 : ¬cond0_1 i) :
    { L1 // Run0 c i harg2 harg3 x0 (owns (c : Thread nD τ) arg3 fullShare xo1) L1 } := by
  refine ⟨?_, fun E K => ?run⟩
  case run =>
    simp only [cc0__dinv_kernel_eq_skeleton]; unfold cc0__dinv_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

set_option maxHeartbeats 1000000 in
noncomputable def kernelRun0_C (hc0 : ¬cond0_0 i) (hc1 : cond0_1 i) :
    { L1 // Run0 c i harg2 harg3 x0 (owns (c : Thread nD τ) arg3 fullShare xo1) L1 } := by
  refine ⟨?_, fun E K => ?run⟩
  case run =>
    simp only [cc0__dinv_kernel_eq_skeleton]; unfold cc0__dinv_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Body

abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)

noncomputable def runA0 (c : Dev nD) (t : Fin cfg0.N) (h0 : t.val % 32 = 0) :=
  kernelRun0_A c (grid0.coords t) (hs0_0 t) (hs0_1 t) (iblk0 V c 0 t) ((hcond0_0 t).mpr h0) (fun h => by have := (hcond0_1 t).mp h; omega)
noncomputable def runB0 (c : Dev nD) (t : Fin cfg0.N) (h0 : ¬t.val % 32 = 0) (h1 : ¬t.val % 32 = 31) (xo : Vec F S1x4096 .f32) :=
  kernelRun0_B c (grid0.coords t) (hs0_0 t) (hs0_1 t) (iblk0 V c 0 t) xo (fun h => h0 ((hcond0_0 t).mp h)) (fun h => h1 ((hcond0_1 t).mp h))
noncomputable def runC0 (c : Dev nD) (t : Fin cfg0.N) (h0 : ¬t.val % 32 = 0) (h1 : t.val % 32 = 31) (xo : Vec F S1x4096 .f32) :=
  kernelRun0_C c (grid0.coords t) (hs0_0 t) (hs0_1 t) (iblk0 V c 0 t) xo (fun h => h0 ((hcond0_0 t).mp h)) ((hcond0_1 t).mpr h1)

def outsAt0 (c : Dev nD) : (n : ℕ) → n < cfg0.N → Vec F S1x4096 .f32
  | 0, hn => outOf0 (runA0 V c ⟨0, hn⟩ (Nat.zero_mod _)).1
  | n + 1, hn =>
    if h0 : (n + 1) % 32 = 0 then outOf0 (runA0 V c ⟨n + 1, hn⟩ h0).1
    else if h1 : (n + 1) % 32 = 31 then outOf0 (runC0 V c ⟨n + 1, hn⟩ h0 h1 (outsAt0 c n (Nat.lt_of_succ_lt hn))).1
    else outOf0 (runB0 V c ⟨n + 1, hn⟩ h0 h1 (outsAt0 c n (Nat.lt_of_succ_lt hn))).1

abbrev prev0 (c : Dev nD) (t : Fin cfg0.N) : Vec F S1x4096 .f32 := outsAt0 V c (t.val - 1) (Nat.lt_of_le_of_lt (Nat.sub_le _ _) t.isLt)

theorem outsAt0_A (c : Dev nD) (t : Fin cfg0.N) (h0 : t.val % 32 = 0) : outsAt0 V c t.val t.isLt = outOf0 (runA0 V c t h0).1 := by
  obtain ⟨n, hn⟩ := t
  cases n with
  | zero => exact rfl
  | succ n => exact (dif_pos h0).trans rfl

theorem outsAt0_B (c : Dev nD) (t : Fin cfg0.N) (h0 : ¬t.val % 32 = 0) (h1 : ¬t.val % 32 = 31) :
    outsAt0 V c t.val t.isLt = outOf0 (runB0 V c t h0 h1 (prev0 V c t)).1 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 32 = 0) (h1 : t.val % 32 = 31) :
    outsAt0 V c t.val t.isLt = outOf0 (runC0 V c t h0 h1 (prev0 V c t)).1 := by
  obtain ⟨n, hn⟩ := t
  cases n with
  | zero => exact absurd (Nat.zero_mod _) h0
  | succ n => exact (dif_neg h0).trans ((dif_pos h1).trans rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_1 (c : Dev nD) (t : Fin cfg0.N) : (dat0 V c).after 1 t = outsAt0 V c t.val t.isLt := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => by unfold Dat.blockOf; dsimp only [dat0]; unfold iblk0; rfl) t d).trans
    (by unfold Dat.fetched Dat.blockOf; dsimp only [dat0]; unfold iblk0; rfl)

theorem before0_1_kept (c : Dev nD) (t : Fin cfg0.N) (h0 : ¬t.val % 32 = 0) (d) : (dat0 V c).before 1 t d = prev0 V c t := by
  have hN : t.val < 64 := lt_of_lt_of_eq t.isLt (show cfg0.N = 64 from N_0)
  rw [Dat.before_out_kept _ 1 rfl t (by omega) (Bool.eq_false_iff.mpr fun h => by have := (flush0_1 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) (o : Vec F S1x4096 .f32) : sProp 𝕄 :=
  iprop((dat0 V c).Φ t.castSucc ∗ (dat0 V c).owesAt () t.castSucc
    ∗ owns (c : Thread nD τ) (ms0_0 t) fullShare (iblk0 V c 0 t) ∗ owns (c : Thread nD τ) (ms0_1 t) fullShare o)

set_option maxHeartbeats 800000 in
theorem close0 (c : Dev nD) (t : Fin cfg0.N) {P1 : sProp 𝕄} {L1 : List (View.Piece (Elt F) S1x4096 .f32)}
    (hrun : Run0 c (grid0.coords t) (hs0_0 t) (hs0_1 t) (iblk0 V c 0 t) P1 L1) (hcov : ∀ y, ∃ pc ∈ L1, y ∈ pc.1.set)
    (hP : iprop(∃ d, owns (c : Thread nD τ) (ms0_1 t) fullShare ((dat0 V c).before 1 t d)) ⊢ P1) :
    bodyPre0 V c t ⊢ wp frame (wpE (defs₀ (F := F)) Variants.none c none) Set.univ (bodyAt0 t) (fun _ => bodyPost0 V c t (outOf0 L1)) := by
  unfold bodyPre0 bodyPost0 bodyAt0
  simp only [before0_0]
  iintro ⟨HΦ, Ho, ⟨%d0, H0⟩, H1⟩
  iapply (hrun Set.univ _)
  isplitl [H0]; · iexact H0
  isplitl [H1]; · iapply hP; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ hcov

theorem sound_body0 (c : Dev nD) (t : Fin cfg0.N) :
    bodyPre0 V c t ⊢ wp frame (wpE (defs₀ (F := F)) Variants.none c none) Set.univ (bodyAt0 t) (fun _ =>
      iprop((dat0 V c).Φ t.succ ∗ (dat0 V c).owesAt () t.succ
        ∗ owns (c : Thread nD τ) (ms0_0 t) fullShare ((dat0 V c).after 0 t)
        ∗ owns (c : Thread nD τ) (ms0_1 t) fullShare ((dat0 V c).after 1 t))) := by
  rw [show (dat0 V c).Φ t.succ = (dat0 V c).Φ t.castSucc from rfl,
    show (dat0 V c).owesAt () t.succ = (dat0 V c).owesAt () t.castSucc from rfl,
    show (dat0 V c).after 0 t = iblk0 V c 0 t from by dsimp only [dat0], after0_1]
  by_cases h0 : t.val % 32 = 0
  · rw [outsAt0_A V c t h0]
    refine close0 V c t (runA0 V c t h0).2 (View.cover_of_tiledL (runA0 V c t h0).1 S1x4096.size (by sl_kernel_rfl)) ?_
    iintro ⟨%d, H⟩; iexists _; iexact H
  · have hk : iprop(∃ d, owns (c : Thread nD τ) (ms0_1 t) fullShare ((dat0 V c).before 1 t d)) ⊢ (owns (c : Thread nD τ) (ms0_1 t) fullShare (prev0 V c t) : sProp 𝕄) := by
      simp only [before0_1_kept V c t h0]; iintro ⟨%d, H⟩; iexact H
    by_cases h1 : t.val % 32 = 31
    · rw [outsAt0_C V c t h0 h1]
      exact close0 V c t (runC0 V c t h0 h1 (prev0 V c t)).2 (View.cover_of_tiledL (runC0 V c t h0 h1 (prev0 V c t)).1 S1x4096.size (by sl_kernel_rfl)) hk
    · rw [outsAt0_B V c t h0 h1]
      exact close0 V c t (runB0 V c t h0 h1 (prev0 V c t)).2 (View.cover_of_tiledL (runB0 V c t h0 h1 (prev0 V c t)).1 S1x4096.size (by sl_kernel_rfl)) hk

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Pipeline.ΦA spec0 c from rfl]
theorem hout0 (c : Dev nD) : (dat0 V c).Φ (Fin.last cfg0.N) ⊢ Pipeline.ΦA spec0 c := by
  rw [show (dat0 V c).Φ (Fin.last cfg0.N) = Pipeline.ΦA spec0 c from rfl]

end Cert.KernelIdeal.Hand

end
-- ==== Proof.KernelIdeal.R1.lean ====
import proofs.«123510_g2000706009674355_pallasbulk_102_2_alg».proof.Proof.Gen.KernelIdeal.Launch
import proofs.«123510_g2000706009674355_pallasbulk_102_2_alg».proof.Proof.Gen.KernelIdeal.Skeleton
import proofs.«123510_g2000706009674355_pallasbulk_102_2_alg».proof.Proof.Gen.KernelIdeal.Points
import Idealize.ShloMosaic.Lib.Pipeline.FrameBody
import Idealize.ShloMosaic.Lib.Tactic

/-! The scaled feature product d ⊙ (x · w) on a block of 512 rows at every point; nothing is carried between points. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S512x256 := Rect.unit (s := S512x256) ![0, 0] S512x256.size inb_S512x256_S512x256_0_0
abbrev r1_1 : Rect S256x256 := Rect.unit (s := S256x256) ![0, 0] S256x256.size inb_S256x256_S256x256_0_0
abbrev r1_2 : Rect S512x1 := Rect.unit (s := S512x1) ![0, 0] S512x1.size inb_S512x1_S512x1_0_0

def out1_3 (x0 : Vec F S512x256 .f32) (x1 : Vec F S256x256 .f32) (x2 : Vec F S512x1 .f32) : Vec F S512x256 .f32 :=
  View.canon [⟨r1_0, k1_pay1 (View.ld x0 r1_0) (View.ld x1 r1_1) (View.ld x2 r1_2)⟩]

set_option maxHeartbeats 1000000 in
theorem sound_kernel1 (c : Dev nD) (E : Set ℕ) (i : grid1.Coords)
    (arg0 : Memref sig .tc .vmem S512x256 .f32) (harg0 : arg0.IsWhole) (arg1 : Memref sig .tc .vmem S256x256 .f32) (harg1 : arg1.IsWhole)
    (arg2 : Memref sig .tc .vmem S512x1 .f32) (harg2 : arg2.IsWhole) (arg3 : Memref sig .tc .vmem S512x256 .f32) (harg3 : arg3.IsWhole)
    (x0 : Vec F S512x256 .f32) (x1 : Vec F S256x256 .f32) (x2 : Vec F S512x1 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__hs_kernel i arg0 harg0 arg1 harg1 arg2 harg2 arg3 harg3) K := by
  simp only [cc1__hs_kernel_eq_skeleton]; unfold cc1__hs_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ (View.cover_of_tiled _ S512x256.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => by unfold Dat.blockOf; dsimp only [dat1]; unfold iblk1; rfl) t d).trans
    (by unfold Dat.fetched Dat.blockOf; dsimp only [dat1]; unfold iblk1; rfl)
theorem before1_1 (c : Dev nD) (t : Fin cfg1.N) (d) : (dat1 V c).before 1 t d = iblk1 V c 1 t :=
  ((dat1 V c).before_in_eq_fetched 1 rfl (fun _ => rfl) (fun _ _ _ => rfl) (fun _ => by unfold Dat.blockOf; dsimp only [dat1]; unfold iblk1; rfl) t d).trans
    (by unfold Dat.fetched Dat.blockOf; dsimp only [dat1]; unfold iblk1; rfl)
theorem before1_2 (c : Dev nD) (t : Fin cfg1.N) (d) : (dat1 V c).before 2 t d = iblk1 V c 2 t :=
  ((dat1 V c).before_in_eq_fetched 2 rfl (fun _ => rfl) (fun _ _ _ => rfl) (fun _ => by unfold Dat.blockOf; dsimp only [dat1]; unfold iblk1; rfl) t d).trans
    (by unfold Dat.fetched Dat.blockOf; dsimp only [dat1]; unfold iblk1; rfl)

theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t))) := by
  unfold bodyAt1
  simp only [before1_0, before1_1, before1_2]
  rw [show (dat1 V c).Φ t.succ = (dat1 V c).Φ t.castSucc from rfl, show (dat1 V c).owesAt () t.succ = (dat1 V c).owesAt () t.castSucc from rfl]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Pipeline.ΦA spec1 c from rfl]

theorem hout1 (c : Dev nD) : (dat1 V c).Φ (Fin.last cfg1.N) ⊢ Pipeline.ΦA spec1 c := by
  rw [show (dat1 V c).Φ (Fin.last cfg1.N) = Pipeline.ΦA spec1 c from rfl]

end Cert.KernelIdeal.Hand

end
-- ==== Proof.KernelIdeal.R2.lean ====
import proofs.«123510_g2000706009674355_pallasbulk_102_2_alg».proof.Proof.Gen.KernelIdeal.Launch
import proofs.«123510_g2000706009674355_pallasbulk_102_2_alg».proof.Proof.Gen.KernelIdeal.Skeleton
import proofs.«123510_g2000706009674355_pallasbulk_102_2_alg».proof.Proof.Gen.KernelIdeal.Points
import Idealize.ShloMosaic.Lib.Pipeline.FrameBody
import Idealize.ShloMosaic.Lib.Ring
import Idealize.ShloMosaic.Lib.Tactic

/-! The aggregation d ⊙ (gᵀ · hs) + b: every block of 512 output rows is a sum over 16 steps, scaled and shifted at the last. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := k2_cond1 i = 1#1
abbrev cond2_1 (i : grid2.Coords) : Prop := k2_cond2 i = 1#1
abbrev cond2_2 (i : grid2.Coords) : Prop := k2_cond3 i = 1#1

theorem hcond2_0 : ∀ t : Fin cfg2.N, cond2_0 (grid2.coords t) ↔ t.val % 16 = 0 :=
  (by decide +kernel : ∀ t : Fin grid2.N, cond2_0 (grid2.coords t) ↔ t.val % 16 = 0)
theorem hcond2_1 : ∀ t : Fin cfg2.N, cond2_1 (grid2.coords t) ↔ t.val % 16 ≠ 0 :=
  (by decide +kernel : ∀ t : Fin grid2.N, cond2_1 (grid2.coords t) ↔ t.val % 16 ≠ 0)
theorem hcond2_2 : ∀ t : Fin cfg2.N, cond2_2 (grid2.coords t) ↔ t.val % 16 = 15 :=
  (by decide +kernel : ∀ t : Fin grid2.N, cond2_2 (grid2.coords t) ↔ t.val % 16 = 15)

theorem hlive2_4 : ∀ i : grid2.Coords, cfg2.idle 4 i = false := by
  intro i
  have h : ∀ k : Fin 16,
      (!(Scalar.cmpi .ne (Scalar.extui (Scalar.cmpi .eq (BitVec.ofNat 32 k.val) 0#32)) 0#32 == 1#1)
        && !(Scalar.cmpi .ne (Scalar.extui (Scalar.cmpi .sgt (BitVec.ofNat 32 k.val) 0#32)) 0#32 == 1#1)
        && !(Scalar.cmpi .ne (Scalar.extui (Scalar.cmpi .eq (BitVec.ofNat 32 k.val) 15#32)) 0#32 == 1#1)) = false := by
    decide
  exact h (i 1)

abbrev VO2_4 : View sig .tc .vmem S512x256 .f32 := (Memref.whole cc2_stg4_0 : Memref sig .tc .vmem S512x256 .f32).view

def outOf2 (L : List (View.Piece (Elt F) S512x256 .f32)) : Vec F S512x256 .f32 :=
  VO2_4.read (Elt F) (VO2_4.writes (Elt F) VO2_4.junk L)

section Body

variable (c : Dev nD) (i : grid2.Coords)
  {arg2 : Memref sig .tc .vmem S512x512 .f32} (harg2 : arg2.IsWhole) {arg3 : Memref sig .tc .vmem S8192x256 .f32} (harg3 : arg3.IsWhole)
  {arg4 : Memref sig .tc .vmem S512x1 .f32} (harg4 : arg4.IsWhole) {arg5 : Memref sig .tc .vmem S1x256 .f32} (harg5 : arg5.IsWhole)
  {arg6 : Memref sig .tc .vmem S512x256 .f32} (harg6 : arg6.IsWhole)
  (x0 : Vec F S512x512 .f32) (x1 : Vec F S8192x256 .f32) (x2 : Vec F S512x1 .f32) (x3 : Vec F S1x256 .f32)

def Run2 (P6 : sProp 𝕄) (L4 : List (View.Piece (Elt F) S512x256 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ P6
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
      ⊢ wp frame (wpE (defs₀ (F := F)) Variants.none c none) E (cc2__agg_kernel i arg2 harg2 arg3 harg3 arg4 harg4 arg5 harg5 arg6 harg6) K

set_option maxHeartbeats 1000000 in
noncomputable def kernelRun2_A (hc0 : cond2_0 i) (hc1 : ¬cond2_1 i) (hc2 : ¬cond2_2 i) :
    { L4 // Run2 c i harg2 harg3 harg4 harg5 harg6 x0 x1 x2 x3 iprop(∃ d, owns (c : Thread nD τ) arg6 fullShare d) L4 } := by
  refine ⟨?_, fun E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

variable (xo4 : Vec F S512x256 .f32)

set_option maxHeartbeats 1000000 in
noncomputable def kernelRun2_B (hc0 : ¬cond2_0 i) (hc1 : cond2_1 i) (hc2 : ¬cond2_2 i) :
    { L4 // Run2 c i harg2 harg3 harg4 harg5 harg6 x0 x1 x2 x3 (owns (c : Thread nD τ) arg6 fullShare xo4) L4 } := by
  refine ⟨?_, fun E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
noncomputable def kernelRun2_C (hc0 : ¬cond2_0 i) (hc1 : cond2_1 i) (hc2 : cond2_2 i) :
    { L4 // Run2 c i harg2 harg3 harg4 harg5 harg6 x0 x1 x2 x3 (owns (c : Thread nD τ) arg6 fullShare xo4) L4 } := by
  refine ⟨?_, fun E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Body

abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x256 .f32 := win2_4.stage (cfg2.slots t 4)
abbrev hs2_4 (t : Fin cfg2.N) : (ms2_4 t).IsWhole := hstage2_4 ((cfg2.slots t 4).cast nbuf2_4)

theorem hC0 (t : Fin cfg2.N) (h2 : t.val % 16 = 15) : ¬t.val % 16 = 0 := by omega

noncomputable def runA2 (c : Dev nD) (t : Fin cfg2.N) (h0 : t.val % 16 = 0) :=
  kernelRun2_A c (grid2.coords t) (hs2_0 t) (hs2_1 t) (hs2_2 t) (hs2_3 t) (hs2_4 t) (iblk2 V c 0 t) (iblk2 V c 1 t) (iblk2 V c 2 t) (iblk2 V c 3 t) ((hcond2_0 t).mpr h0) (fun h => (hcond2_1 t).mp h h0) (fun h => by have := (hcond2_2 t).mp h; omega)
noncomputable def runB2 (c : Dev nD) (t : Fin cfg2.N) (h0 : ¬t.val % 16 = 0) (h2 : ¬t.val % 16 = 15) (xo : Vec F S512x256 .f32) :=
  kernelRun2_B c (grid2.coords t) (hs2_0 t) (hs2_1 t) (hs2_2 t) (hs2_3 t) (hs2_4 t) (iblk2 V c 0 t) (iblk2 V c 1 t) (iblk2 V c 2 t) (iblk2 V c 3 t) xo (fun h => h0 ((hcond2_0 t).mp h)) ((hcond2_1 t).mpr h0) (fun h => h2 ((hcond2_2 t).mp h))
noncomputable def runC2 (c : Dev nD) (t : Fin cfg2.N) (h2 : t.val % 16 = 15) (xo : Vec F S512x256 .f32) :=
  kernelRun2_C c (grid2.coords t) (hs2_0 t) (hs2_1 t) (hs2_2 t) (hs2_3 t) (hs2_4 t) (iblk2 V c 0 t) (iblk2 V c 1 t) (iblk2 V c 2 t) (iblk2 V c 3 t) xo (fun h => hC0 t h2 ((hcond2_0 t).mp h)) ((hcond2_1 t).mpr (hC0 t h2)) ((hcond2_2 t).mpr h2)

def outsAt2 (c : Dev nD) : (n : ℕ) → n < cfg2.N → Vec F S512x256 .f32
  | 0, hn => outOf2 (runA2 V c ⟨0, hn⟩ (Nat.zero_mod _)).1
  | n + 1, hn =>
    if h0 : (n + 1) % 16 = 0 then outOf2 (runA2 V c ⟨n + 1, hn⟩ h0).1
    else if h2 : (n + 1) % 16 = 15 then outOf2 (runC2 V c ⟨n + 1, hn⟩ h2 (outsAt2 c n (Nat.lt_of_succ_lt hn))).1
    else outOf2 (runB2 V c ⟨n + 1, hn⟩ h0 h2 (outsAt2 c n (Nat.lt_of_succ_lt hn))).1

abbrev prev2 (c : Dev nD) (t : Fin cfg2.N) : Vec F S512x256 .f32 := outsAt2 V c (t.val - 1) (Nat.lt_of_le_of_lt (Nat.sub_le _ _) t.isLt)

theorem outsAt2_A (c : Dev nD) (t : Fin cfg2.N) (h0 : t.val % 16 = 0) : outsAt2 V c t.val t.isLt = outOf2 (runA2 V c t h0).1 := by
  obtain ⟨n, hn⟩ := t
  cases n with
  | zero => exact rfl
  | succ n => exact (dif_pos h0).trans rfl

theorem outsAt2_B (c : Dev nD) (t : Fin cfg2.N) (h0 : ¬t.val % 16 = 0) (h2 : ¬t.val % 16 = 15) :
    outsAt2 V c t.val t.isLt = outOf2 (runB2 V c t h0 h2 (prev2 V c t)).1 := by
  obtain ⟨n, hn⟩ := t
  cases n with
  | zero => exact absurd (Nat.zero_mod _) h0
  | succ n => exact (dif_neg h0).trans ((dif_neg h2).trans rfl)

theorem outsAt2_C (c : Dev nD) (t : Fin cfg2.N) (h2 : t.val % 16 = 15) :
    outsAt2 V c t.val t.isLt = outOf2 (runC2 V c t h2 (prev2 V c t)).1 := by
  obtain ⟨n, hn⟩ := t
  cases n with
  | zero => exact (by exfalso; (try dsimp only at h2); omega)
  | succ n => exact (dif_neg (hC0 ⟨n + 1, hn⟩ h2)).trans ((dif_pos h2).trans rfl)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = outsAt2 V c t.val t.isLt := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => by unfold Dat.blockOf; dsimp only [dat2]; unfold iblk2; rfl) t d).trans
    (by unfold Dat.fetched Dat.blockOf; dsimp only [dat2]; unfold iblk2; rfl)
theorem before2_1 (c : Dev nD) (t : Fin cfg2.N) (d) : (dat2 V c).before 1 t d = iblk2 V c 1 t :=
  ((dat2 V c).before_in_eq_fetched 1 rfl (fun _ => rfl) (fun _ _ _ => rfl) (fun _ => by unfold Dat.blockOf; dsimp only [dat2]; unfold iblk2; rfl) t d).trans
    (by unfold Dat.fetched Dat.blockOf; dsimp only [dat2]; unfold iblk2; rfl)
theorem before2_2 (c : Dev nD) (t : Fin cfg2.N) (d) : (dat2 V c).before 2 t d = iblk2 V c 2 t :=
  ((dat2 V c).before_in_eq_fetched 2 rfl (fun _ => rfl) (fun _ _ _ => rfl) (fun _ => by unfold Dat.blockOf; dsimp only [dat2]; unfold iblk2; rfl) t d).trans
    (by unfold Dat.fetched Dat.blockOf; dsimp only [dat2]; unfold iblk2; rfl)
theorem before2_3 (c : Dev nD) (t : Fin cfg2.N) (d) : (dat2 V c).before 3 t d = iblk2 V c 3 t :=
  ((dat2 V c).before_in_eq_fetched 3 rfl (fun _ => rfl) (fun _ _ _ => rfl) (fun _ => by unfold Dat.blockOf; dsimp only [dat2]; unfold iblk2; rfl) t d).trans
    (by unfold Dat.fetched Dat.blockOf; dsimp only [dat2]; unfold iblk2; rfl)

theorem before2_4_kept (c : Dev nD) (t : Fin cfg2.N) (h0 : ¬t.val % 16 = 0) (d) : (dat2 V c).before 4 t d = prev2 V c t := by
  have hN : t.val < 256 := lt_of_lt_of_eq t.isLt (show cfg2.N = 256 from N_2)
  rw [Dat.before_out_kept _ 4 rfl t (by omega) (Bool.eq_false_iff.mpr fun h => by have := (flush2_4 _).mp h; dsimp only at this; omega)
    hlive2_4 (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) (o : Vec F S512x256 .f32) : sProp 𝕄 :=
  iprop((dat2 V c).Φ t.castSucc ∗ (dat2 V c).owesAt () t.castSucc
    ∗ owns (c : Thread nD τ) (ms2_0 t) fullShare (iblk2 V c 0 t) ∗ owns (c : Thread nD τ) (ms2_1 t) fullShare (iblk2 V c 1 t)
    ∗ owns (c : Thread nD τ) (ms2_2 t) fullShare (iblk2 V c 2 t) ∗ owns (c : Thread nD τ) (ms2_3 t) fullShare (iblk2 V c 3 t)
    ∗ owns (c : Thread nD τ) (ms2_4 t) fullShare o)

set_option maxHeartbeats 1600000 in
theorem close2 (c : Dev nD) (t : Fin cfg2.N) {P6 : sProp 𝕄} {L4 : List (View.Piece (Elt F) S512x256 .f32)}
    (hrun : Run2 c (grid2.coords t) (hs2_0 t) (hs2_1 t) (hs2_2 t) (hs2_3 t) (hs2_4 t) (iblk2 V c 0 t) (iblk2 V c 1 t) (iblk2 V c 2 t) (iblk2 V c 3 t) P6 L4)
    (hcov : ∀ y, ∃ pc ∈ L4, y ∈ pc.1.set)
    (hP : iprop(∃ d, owns (c : Thread nD τ) (ms2_4 t) fullShare ((dat2 V c).before 4 t d)) ⊢ P6) :
    bodyPre2 V c t ⊢ wp frame (wpE (defs₀ (F := F)) Variants.none c none) Set.univ (bodyAt2 t) (fun _ => bodyPost2 V c t (outOf2 L4)) := by
  unfold bodyPre2 bodyPost2 bodyAt2
  simp only [before2_0, before2_1, before2_2, before2_3]
  iintro ⟨HΦ, Ho, ⟨%d0, H0⟩, ⟨%d1, H1⟩, ⟨%d2, H2⟩, ⟨%d3, H3⟩, H4⟩
  iapply (hrun Set.univ _)
  isplitl [H0]; · iexact H0
  isplitl [H1]; · iexact H1
  isplitl [H2]; · iexact H2
  isplitl [H3]; · iexact H3
  isplitl [H4]; · iapply hP; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ hcov

theorem sound_body2 (c : Dev nD) (t : Fin cfg2.N) :
    bodyPre2 V c t ⊢ wp frame (wpE (defs₀ (F := F)) Variants.none c none) Set.univ (bodyAt2 t) (fun _ =>
      iprop((dat2 V c).Φ t.succ ∗ (dat2 V c).owesAt () t.succ
        ∗ owns (c : Thread nD τ) (ms2_0 t) fullShare ((dat2 V c).after 0 t)
        ∗ owns (c : Thread nD τ) (ms2_1 t) fullShare ((dat2 V c).after 1 t)
        ∗ owns (c : Thread nD τ) (ms2_2 t) fullShare ((dat2 V c).after 2 t)
        ∗ owns (c : Thread nD τ) (ms2_3 t) fullShare ((dat2 V c).after 3 t)
        ∗ (dat2 V c).leavesExact 4 t)) := by
  rw [show (dat2 V c).Φ t.succ = (dat2 V c).Φ t.castSucc from rfl,
    show (dat2 V c).owesAt () t.succ = (dat2 V c).owesAt () t.castSucc from rfl,
    show (dat2 V c).leavesExact 4 t = owns (c : Thread nD τ) (ms2_4 t) fullShare ((dat2 V c).after 4 t) from by
      unfold Dat.leavesExact; rw [hlive2_4 (grid2.coords t)],
    show (dat2 V c).after 0 t = iblk2 V c 0 t from by dsimp only [dat2], show (dat2 V c).after 1 t = iblk2 V c 1 t from by dsimp only [dat2],
    show (dat2 V c).after 2 t = iblk2 V c 2 t from by dsimp only [dat2], show (dat2 V c).after 3 t = iblk2 V c 3 t from by dsimp only [dat2], after2_4]
  by_cases h0 : t.val % 16 = 0
  · rw [outsAt2_A V c t h0]
    refine close2 V c t (runA2 V c t h0).2 (View.cover_of_tiledL (runA2 V c t h0).1 S512x256.size (by sl_kernel_rfl)) ?_
    iintro ⟨%d, H⟩; iexists _; iexact H
  · have hk : iprop(∃ d, owns (c : Thread nD τ) (ms2_4 t) fullShare ((dat2 V c).before 4 t d)) ⊢ (owns (c : Thread nD τ) (ms2_4 t) fullShare (prev2 V c t) : sProp 𝕄) := by
      simp only [before2_4_kept V c t h0]; iintro ⟨%d, H⟩; iexact H
    by_cases h2 : t.val % 16 = 15
    · rw [outsAt2_C V c t h2]
      exact close2 V c t (runC2 V c t h2 (prev2 V c t)).2 (View.cover_of_tiledL (runC2 V c t h2 (prev2 V c t)).1 S512x256.size (by sl_kernel_rfl)) hk
    · rw [outsAt2_B V c t h0 h2]
      exact close2 V c t (runB2 V c t h0 h2 (prev2 V c t)).2 (View.cover_of_tiledL (runB2 V c t h0 h2 (prev2 V c t)).1 S512x256.size (by sl_kernel_rfl)) hk

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Pipeline.ΦA spec2 c from rfl]
theorem hout2 (c : Dev nD) : (dat2 V c).Φ (Fin.last cfg2.N) ⊢ Pipeline.ΦA spec2 c := by
  rw [show (dat2 V c).Φ (Fin.last cfg2.N) = Pipeline.ΦA spec2 c from rfl]

end Cert.KernelIdeal.Hand

end
-- ==== Proof.KernelIdeal.Run.lean ====
import proofs.«123510_g2000706009674355_pallasbulk_102_2_alg».proof.Proof.Gen.KernelIdeal.Regions
import proofs.«123510_g2000706009674355_pallasbulk_102_2_alg».proof.Proof.KernelIdeal.R0
import proofs.«123510_g2000706009674355_pallasbulk_102_2_alg».proof.Proof.KernelIdeal.R1
import proofs.«123510_g2000706009674355_pallasbulk_102_2_alg».proof.Proof.KernelIdeal.R2
import Idealize.ShloMosaic.Lib.Pipeline.RegionsLoop
import Idealize.ShloMosaic.Lib.Pipeline.FrameSuffix

/-! The program's regions in order: what each leaves is what the next finds. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev atTc (W : Dev nD → Valuation τ sig (Elt F)) : (c : Dev nD) → (b : Ref sig .tc) → Buf (Elt F) ((c : Thread nD τ).loc b) :=
  fun c b => W c b

def outsA : Outs (F := F) := fun _ r c => m ((c : Thread nD τ).loc r)

def X2 (c : Dev nD) : Valuation τ sig (Elt F) :=
  Pipeline.withArrays spec0 c (V1 m c) fun w => (dat0 (atTc (V1 m)) c).arrAt w cfg0.N

def outsB : Outs (F := F)
  | 2 => fun r c => X2 m c r
  | n => outsA m n

def X4 (c : Dev nD) : Valuation τ sig (Elt F) :=
  Pipeline.withArrays spec1 c (V3 m (outsB m) c) fun w => (dat1 (atTc (V3 m (outsB m))) c).arrAt w cfg1.N

def outsC : Outs (F := F)
  | 2 => fun r c => X2 m c r
  | 4 => fun r c => X4 m c r
  | n => outsA m n

def X5 (c : Dev nD) : Valuation τ sig (Elt F) :=
  Pipeline.withArrays spec2 c (V4 m (outsC m) c) fun w => (dat2 (atTc (V4 m (outsC m))) c).arrAt w cfg2.N

def outsD : Outs (F := F)
  | 2 => fun r c => X2 m c r
  | 4 => fun r c => X4 m c r
  | 5 => fun r c => X5 m c r
  | n => outsA m n

theorem V3_D (c : Dev nD) : V3 m (outsD m) c = V3 m (outsB m) c := rfl
theorem V4_D (c : Dev nD) : V4 m (outsD m) c = V4 m (outsC m) c := rfl

abbrev 𝒱₀ : Variants := Variants.none

abbrev L : GSem nD τ sig → Finset Unit := fun _ => ∅
abbrev lv : GSem nD τ sig → Unit → ℕ := fun _ _ => 0

abbrev Rest (c : Dev nD) : sProp 𝕄 := iprop((∃ r, prngReg c r) ∗ ∃ W, owes (c : Thread nD τ) (0 : CellTallies nD τ sig Unit) W)
abbrev E : Fin 4 → Dev nD → sProp 𝕄 := fun _ c => Rest (F := F) c

def pdats : (p : Fin 3) → (c : Dev nD) → Dat τ (Elt F) Unit ℕ (UR sig nD τ) ℕ (cfgs p) c
  | ⟨0, _⟩ => fun c => dat0 (atTc (V1 m)) c
  | ⟨1, _⟩ => fun c => dat1 (atTc (V3 m (outsB m))) c
  | ⟨2, _⟩ => fun c => dat2 (atTc (V4 m (outsC m))) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def mkReg (p : Fin 3) (lf : Pipeline.LaunchFacts (nD := nD) (τ := τ) cfgs p) (Vi Vo : (c : Dev nD) → Valuation τ sig (Elt F))
    (hb : ∀ c, BodyObligation (pdats m p c) (defs₀ (F := F)) 𝒱₀ () Set.univ)
    (hq : ∀ c w, (pdats m p c).q w = fullShare) (ho : ∀ c t, (pdats m p c).owed t = 0) (hrec : ∀ c, (pdats m p c).recorded 0 = Set.univ)
    (hA : ∀ c w, (pdats m p c).A w = atTc Vi c (Pipeline.arrRef (cfgs p).spec w))
    (hin : ∀ c, Pipeline.ΦA (cfgs p).spec c ⊢ (pdats m p c).Φ 0)
    (hout : ∀ c, (pdats m p c).Φ (Fin.last (cfgs p).N) ⊢ Pipeline.ΦA (cfgs p).spec c)
    (hF : ∀ c w, (pdats m p c).arrAt w (cfgs p).N = atTc Vo c (Pipeline.arrRef (cfgs p).spec w))
    (hrest : ∀ c b, b ∉ Finset.univ.image (Pipeline.arrRef (cfgs p).spec) → atTc Vo c b = atTc Vi c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Vi c) ∗ (∃ r, prngReg c r) ∗ ∃ W, owes (c : Thread nD τ) (0 : CellTallies nD τ sig Unit) W)
  post c := iprop(StableHlo.held (c : Thread nD τ) (Pipeline.ucRefs τ sig) (Vo c) ∗ (∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) (cfgs p).spec c (atTc Vi c)
  hentry c := by
    rw [Pipeline.ownSems0_none]
    have hsplit := Pipeline.arrays_of_unscopedBufs (p := p) (pcfgs (F := F)) adm (pdats m) lf.win lf.arr_whole c
      ((pdats m p c).share_full (hq c)) (atTc Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c]
      icases HO with ⟨%W, HO⟩; iexists W; isplitr; · ipureintro; exact fun _ _ => Or.inl (hrec c ▸ trivial)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atTc Vi c) (atTc Vo c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c]
    icases HO with ⟨%W, -, HO⟩; iexists W; iexact HO

theorem hF0 (c : Dev nD) (w : Fin cfg0.W) :
    (pdats m 0 c).arrAt w cfg0.N = atTc (V2 m (outsD m)) c (Pipeline.arrRef spec0 w) := by
  match w with
  | ⟨0, _⟩ =>
    exact (((pdats m 0 c).arrAt_in 0 rfl _).trans (A_eq0 (atTc (V1 m)) c 0)).trans (V2_of m (outsD m) c main_arg1 (by decide)).symm
  | ⟨1, _⟩ =>
    show _ = Function.update (V1 m c) main_call0_v0 (outsD m 2 main_call0_v0 c) main_call0_v0
    rw [Function.update_self]
    show (dat0 (atTc (V1 m)) c).arrAt 1 cfg0.N = X2 m c (Proc.devRef .tc main_call0_v0)
    unfold X2
    exact (Pipeline.withArrays_arr spec0 launch0.win.arr_inj c (V1 m c) (fun w => (dat0 (atTc (V1 m)) c).arrAt w cfg0.N) 1).symm

theorem hrest0 (c : Dev nD) : ∀ b, b ∉ Finset.univ.image (Pipeline.arrRef spec0) → atTc (V2 m (outsD m)) c b = atTc (V1 m) c b :=
  fun b hb => V2_of m (outsD m) c b fun h =>
    hb (Finset.mem_image.mpr ⟨1, Finset.mem_univ _, (List.mem_singleton.mp h).symm⟩)

theorem hF1 (c : Dev nD) (w : Fin cfg1.W) :
    (pdats m 1 c).arrAt w cfg1.N = atTc (V4 m (outsD m)) c (Pipeline.arrRef spec1 w) := by
  match w with
  | ⟨0, _⟩ =>
    exact (((pdats m 1 c).arrAt_in 0 rfl _).trans (A_eq1 (atTc (V3 m (outsB m))) c 0)).trans (V4_of m (outsD m) c main_arg0 (by decide)).symm
  | ⟨1, _⟩ =>
    exact (((pdats m 1 c).arrAt_in 1 rfl _).trans (A_eq1 (atTc (V3 m (outsB m))) c 1)).trans (V4_of m (outsD m) c main_arg2 (by decide)).symm
  | ⟨2, _⟩ =>
    exact (((pdats m 1 c).arrAt_in 2 rfl _).trans (A_eq1 (atTc (V3 m (outsB m))) c 2)).trans (V4_of m (outsD m) c main_call0_v1 (by decide)).symm
  | ⟨3, _⟩ =>
    show _ = Function.update (V3 m (outsD m) c) main_call0_v2 (outsD m 4 main_call0_v2 c) main_call0_v2
    rw [Function.update_self]
    show (dat1 (atTc (V3 m (outsB m))) c).arrAt 3 cfg1.N = X4 m c (Proc.devRef .tc main_call0_v2)
    unfold X4
    exact (Pipeline.withArrays_arr spec1 launch1.win.arr_inj c (V3 m (outsB m) c) (fun w => (dat1 (atTc (V3 m (outsB m))) c).arrAt w cfg1.N) 3).symm

theorem hrest1 (c : Dev nD) : ∀ b, b ∉ Finset.univ.image (Pipeline.arrRef spec1) → atTc (V4 m (outsD m)) c b = atTc (V3 m (outsB m)) c b :=
  fun b hb => V4_of m (outsD m) c b fun h =>
    hb (Finset.mem_image.mpr ⟨3, Finset.mem_univ _, (List.mem_singleton.mp h).symm⟩)

theorem hF2 (c : Dev nD) (w : Fin cfg2.W) :
    (pdats m 2 c).arrAt w cfg2.N = atTc (V5 m (outsD m)) c (Pipeline.arrRef spec2 w) := by
  match w with
  | ⟨0, _⟩ =>
    exact (((pdats m 2 c).arrAt_in 0 rfl _).trans (A_eq2 (atTc (V4 m (outsC m))) c 0)).trans (V5_of m (outsD m) c main_arg1 (by decide)).symm
  | ⟨1, _⟩ =>
    exact (((pdats m 2 c).arrAt_in 1 rfl _).trans (A_eq2 (atTc (V4 m (outsC m))) c 1)).trans (V5_of m (outsD m) c main_call0_v2 (by decide)).symm
  | ⟨2, _⟩ =>
    exact (((pdats m 2 c).arrAt_in 2 rfl _).trans (A_eq2 (atTc (V4 m (outsC m))) c 2)).trans (V5_of m (outsD m) c main_call0_v1 (by decide)).symm
  | ⟨3, _⟩ =>
    exact (((pdats m 2 c).arrAt_in 3 rfl _).trans (A_eq2 (atTc (V4 m (outsC m))) c 3)).trans (V5_of m (outsD m) c main_v0 (by decide)).symm
  | ⟨4, _⟩ =>
    show _ = Function.update (V4 m (outsD m) c) main_v1 (outsD m 5 main_v1 c) main_v1
    rw [Function.update_self]
    show (dat2 (atTc (V4 m (outsC m))) c).arrAt 4 cfg2.N = X5 m c (Proc.devRef .tc main_v1)
    unfold X5
    exact (Pipeline.withArrays_arr spec2 launch2.win.arr_inj c (V4 m (outsC m) c) (fun w => (dat2 (atTc (V4 m (outsC m))) c).arrAt w cfg2.N) 4).symm

theorem hrest2 (c : Dev nD) : ∀ b, b ∉ Finset.univ.image (Pipeline.arrRef spec2) → atTc (V5 m (outsD m)) c b = atTc (V4 m (outsC m)) c b :=
  fun b hb => V5_of m (outsD m) c b fun h =>
    hb (Finset.mem_image.mpr ⟨4, Finset.mem_univ _, (List.mem_singleton.mp h).symm⟩)

def reg0 : Pipeline.RegionSeg (pcfgs (F := F)) adm (pdats m) () defs₀ 𝒱₀ L lv 0 :=
  mkReg m 0 launch0 (V1 m) (V2 m (outsD m)) (body_obligation0 (atTc (V1 m))) (fun _ _ => rfl) (fun _ _ => rfl) (fun _ => rfl)
    (A_eq0 (atTc (V1 m))) (hin0 (atTc (V1 m))) (hout0 (atTc (V1 m))) (hF0 m) (hrest0 m)

def reg1 : Pipeline.RegionSeg (pcfgs (F := F)) adm (pdats m) () defs₀ 𝒱₀ L lv 1 :=
  mkReg m 1 launch1 (V3 m (outsB m)) (V4 m (outsD m)) (body_obligation1 (atTc (V3 m (outsB m)))) (fun _ _ => rfl) (fun _ _ => rfl) (fun _ => rfl)
    (A_eq1 (atTc (V3 m (outsB m)))) (hin1 (atTc (V3 m (outsB m)))) (hout1 (atTc (V3 m (outsB m)))) (hF1 m) (hrest1 m)

def reg2 : Pipeline.RegionSeg (pcfgs (F := F)) adm (pdats m) () defs₀ 𝒱₀ L lv 2 :=
  mkReg m 2 launch2 (V4 m (outsC m)) (V5 m (outsD m)) (body_obligation2 (atTc (V4 m (outsC m)))) (fun _ _ => rfl) (fun _ _ => rfl) (fun _ => rfl)
    (A_eq2 (atTc (V4 m (outsC m)))) (hin2 (atTc (V4 m (outsC m)))) (hout2 (atTc (V4 m (outsC m)))) (hF2 m) (hrest2 m)

abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE3 (c : Dev nD) : E (F := F) 3 c ⊢ (iprop(∃ W, owes (c : Thread nD τ) (0 : CellTallies nD τ sig Unit) W) : sProp 𝕄) := by
  iintro ⟨-, HO⟩; iexact HO

set_option backward.isDefEq.respectTransparency.types false in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m (EP := emb₁) (ι := ()) (𝒱₀ := 𝒱₀) (L := L) (lv := lv) (hL := fun _ _ => rfl) (ρ := ρ) (outs := outsD m) (pdats := pdats m)
    (O₀ := 0) (G := fun _ => iprop(emp)) (u₀ := u₀) (hu₀ := hu₀) (E := E) (hE0 := hE0 ρ) (hE3 := hE3)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)

end Cert.KernelIdeal.Hand

end
-- ==== Proof.KernelIdeal.RunValue.lean ====
import proofs.«123510_g2000706009674355_pallasbulk_102_2_alg».proof.Proof.KernelIdeal.Run

/-! The run once more, keeping the value the last region leaves. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V5_result (c : Dev nD) : V5 m (outsD m) c main_v1 = X5 m c main_v1 := by
  show Function.update (V4 m (outsD m) c) main_v1 (outsD m 5 main_v1 c) main_v1 = _
  rw [Function.update_self]
  rfl

theorem join_rest (HH EE : Dev nD → sProp 𝕄) :
    iprop(bigSep Finset.univ HH ∗ bigSep Finset.univ EE) ⊢ bigSep Finset.univ (fun c => iprop(HH c ∗ EE c)) := by
  rw [bigSep_sep']

set_option backward.isDefEq.respectTransparency.types false in
theorem run_value : θ_run defs (onTc (τ := τ) (main (F := F))) ⟨m, fun _ => 0, ρ⟩ (fun r => ∀ c : Dev nD,
      r.2.mem ((c.tc : Thread nD τ).loc main_v1) = X5 m c main_v1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats m) () cellOf_inj emb₁ defs₀ 𝒱₀ L lv m ρ main
    (segs m (outsD m) 𝒱₀ L lv E () (pdats m) (reg0 m) (reg1 m) (reg2 m))
    (fun c Q => by
      rewrite [main_chain c, Seg.run_eq_chain,
        show (segs m (outsD m) 𝒱₀ L lv E () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()) ] from rfl]
      exact .rfl)
    (fun c => by simp only [segs, Seg.pipes_host, Seg.pipes_region, Seg.pipes_nil]; decide) 0 (fun _ _ => rfl) (fun _ => iprop(emp)) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m (outsD m) c))
    (hch := fun c => ⟨.rfl, .rfl, .rfl, .rfl, .rfl, sep_mono .rfl (hE3 c)⟩)
    (hinit := ?_) (QY := fun c s => s.mem ((c.tc : Thread nD τ).loc main_v1) = X5 m c main_v1 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    iapply (join_rest (F := F) (fun c : Dev nD => StableHlo.held (c : Thread nD τ) (Pipeline.ucRefs τ sig) (V0 m c)) (E (F := F) 0))
    isplitl [Hh]; · iexact Hh
    iexact HE
  · unfold StableHlo.held
    iintro ⟨Hh, HSI⟩
    ihave Hr := (pointsTo_read_all (Pipeline.ucRefs τ sig) (fun b => ((c : Thread nD τ).1, b)) (V5 m (outsD m) c) s') $$ [Hh HSI]
    · isplitl [Hh] <;> iassumption
    icases Hr with ⟨%h, HSI⟩
    imodintro
    isplitr
    · ipureintro
      exact ⟨(h (Proc.devRef .tc main_v1) (Finset.mem_filter.mpr ⟨StableHlo.devRef_mem_tcRefs main_v1, by decide⟩)).trans (V5_result m c),
        (h (Proc.devRef .tc main_arg0) (Finset.mem_filter.mpr ⟨StableHlo.devRef_mem_tcRefs main_arg0, by decide⟩)).trans (V5_main_arg0 m (outsD m) c),
        (h (Proc.devRef .tc main_arg1) (Finset.mem_filter.mpr ⟨StableHlo.devRef_mem_tcRefs main_arg1, by decide⟩)).trans (V5_main_arg1 m (outsD m) c),
        (h (Proc.devRef .tc main_arg2) (Finset.mem_filter.mpr ⟨StableHlo.devRef_mem_tcRefs main_arg2, by decide⟩)).trans (V5_main_arg2 m (outsD m) c),
        (h (Proc.devRef .tc main_arg3) (Finset.mem_filter.mpr ⟨StableHlo.devRef_mem_tcRefs main_arg3, by decide⟩)).trans (V5_main_arg3 m (outsD m) c)⟩
    · iexact HSI

end Cert.KernelIdeal.Hand

end
-- ==== Proof.ReferenceIdeal.R0.lean ====
import proofs.«123510_g2000706009674355_pallasbulk_102_2_alg».proof.Proof.Gen.ReferenceIdeal.Launch
import proofs.«123510_g2000706009674355_pallasbulk_102_2_alg».proof.Proof.Gen.ReferenceIdeal.Skeleton
import proofs.«123510_g2000706009674355_pallasbulk_102_2_alg».proof.Proof.Gen.ReferenceIdeal.Points
import Idealize.ShloMosaic.Lib.Pipeline.FrameBody
import Idealize.ShloMosaic.Lib.Tactic

/-! The scaled feature product d ⊙ (x · w) on a block of 512 rows at every point; nothing is carried between points. -/

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x256 := Rect.unit (s := S512x256) ![0, 0] S512x256.size inb_S512x256_S512x256_0_0
abbrev r0_1 : Rect S256x256 := Rect.unit (s := S256x256) ![0, 0] S256x256.size inb_S256x256_S256x256_0_0
abbrev r0_2 : Rect S512x1 := Rect.unit (s := S512x1) ![0, 0] S512x1.size inb_S512x1_S512x1_0_0

def out0_3 (x0 : Vec F S512x256 .f32) (x1 : Vec F S256x256 .f32) (x2 : Vec F S512x1 .f32) : Vec F S512x256 .f32 :=
  View.canon [⟨r0_0, k0_pay1 (View.ld x0 r0_0) (View.ld x1 r0_1) (View.ld x2 r0_2)⟩]

set_option maxHeartbeats 1000000 in
theorem sound_kernel0 (c : Dev nD) (E : Set ℕ) (i : grid0.Coords)
    (arg0 : Memref sig .tc .vmem S512x256 .f32) (harg0 : arg0.IsWhole) (arg1 : Memref sig .tc .vmem S256x256 .f32) (harg1 : arg1.IsWhole)
    (arg2 : Memref sig .tc .vmem S512x1 .f32) (harg2 : arg2.IsWhole) (arg3 : Memref sig .tc .vmem S512x256 .f32) (harg3 : arg3.IsWhole)
    (x0 : Vec F S512x256 .f32) (x1 : Vec F S256x256 .f32) (x2 : Vec F S512x1 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__gcn_feat_kernel i arg0 harg0 arg1 harg1 arg2 harg2 arg3 harg3) K := by
  simp only [cc0__gcn_feat_kernel_eq_skeleton]; unfold cc0__gcn_feat_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ (View.cover_of_tiled _ S512x256.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => by unfold Dat.blockOf; dsimp only [dat0]; unfold iblk0; rfl) t d).trans
    (by unfold Dat.fetched Dat.blockOf; dsimp only [dat0]; unfold iblk0; rfl)
theorem before0_1 (c : Dev nD) (t : Fin cfg0.N) (d) : (dat0 V c).before 1 t d = iblk0 V c 1 t :=
  ((dat0 V c).before_in_eq_fetched 1 rfl (fun _ => rfl) (fun _ _ _ => rfl) (fun _ => by unfold Dat.blockOf; dsimp only [dat0]; unfold iblk0; rfl) t d).trans
    (by unfold Dat.fetched Dat.blockOf; dsimp only [dat0]; unfold iblk0; rfl)
theorem before0_2 (c : Dev nD) (t : Fin cfg0.N) (d) : (dat0 V c).before 2 t d = iblk0 V c 2 t :=
  ((dat0 V c).before_in_eq_fetched 2 rfl (fun _ => rfl) (fun _ _ _ => rfl) (fun _ => by unfold Dat.blockOf; dsimp only [dat0]; unfold iblk0; rfl) t d).trans
    (by unfold Dat.fetched Dat.blockOf; dsimp only [dat0]; unfold iblk0; rfl)

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t))) := by
  unfold bodyAt0
  simp only [before0_0, before0_1, before0_2]
  rw [show (dat0 V c).Φ t.succ = (dat0 V c).Φ t.castSucc from rfl, show (dat0 V c).owesAt () t.succ = (dat0 V c).owesAt () t.castSucc from rfl]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Pipeline.ΦA spec0 c from rfl]

theorem hout0 (c : Dev nD) : (dat0 V c).Φ (Fin.last cfg0.N) ⊢ Pipeline.ΦA spec0 c := by
  rw [show (dat0 V c).Φ (Fin.last cfg0.N) = Pipeline.ΦA spec0 c from rfl]

end Cert.ReferenceIdeal.Hand

end
-- ==== Proof.ReferenceIdeal.R1.lean ====
import proofs.«123510_g2000706009674355_pallasbulk_102_2_alg».proof.Proof.Gen.ReferenceIdeal.Launch
import proofs.«123510_g2000706009674355_pallasbulk_102_2_alg».proof.Proof.Gen.ReferenceIdeal.Skeleton
import proofs.«123510_g2000706009674355_pallasbulk_102_2_alg».proof.Proof.Gen.ReferenceIdeal.Points
import Idealize.ShloMosaic.Lib.Pipeline.FrameBody
import Idealize.ShloMosaic.Lib.Ring
import Idealize.ShloMosaic.Lib.Tactic

/-! The reference's aggregation: the 16 block products of a row of blocks are summed in an accumulator, and the last step puts d ⊙ acc + b in the output block. -/

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 16 = 0 :=
  (by decide +kernel : ∀ t : Fin grid1.N, cond1_0 (grid1.coords t) ↔ t.val % 16 = 0)

abbrev cond1_1 (i : grid1.Coords) : Prop := k1_cond2 i = 1#1

theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

theorem idleAt1_4_A : ∀ t : Fin cfg1.N, cond1_0 (grid1.coords t) → ¬cond1_1 (grid1.coords t) → cfg1.idle 4 (grid1.coords t) = true := by decide +kernel

theorem noFlush1_4_A : ∀ t : Fin cfg1.N, cond1_0 (grid1.coords t) → ¬cond1_1 (grid1.coords t) → (cfg1.win 4).flush t = false := by decide +kernel

theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel

theorem liveAt1_4_C : ∀ t : Fin cfg1.N, ¬cond1_0 (grid1.coords t) → cond1_1 (grid1.coords t) → cfg1.idle 4 (grid1.coords t) = false := by decide +kernel

abbrev VO1_4 : View sig .tc .vmem S256x256 .f32 := (Memref.whole cc1_stg4_0 : Memref sig .tc .vmem S256x256 .f32).view
abbrev ms1_0 (t : Fin cfg1.N) : Memref sig .tc .vmem S512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x256 .f32 := win1_4.stage (cfg1.slots t 4)
abbrev hs1_4 (t : Fin cfg1.N) : (ms1_4 t).IsWhole := hstage1_4 ((cfg1.slots t 4).cast nbuf1_4)

abbrev scM1_0 : Memref sig .tc .vmem S256x256 .f32 := Memref.whole cc1_scratch0
abbrev hsc1_0 : scM1_0.IsWhole := Memref.isWhole_whole _

abbrev VS1_0 : View sig .tc .vmem S256x256 .f32 := scM1_0.view

def stgRest (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S) ∗ (∃ r, prngReg c r))

theorem PhiA1_eq (c : Dev nD) : (Pipeline.ΦA spec1 c : sProp 𝕄) = stgRest c iprop(∃ d, owns (c : Thread nD τ) scM1_0 fullShare d) := by
  unfold Pipeline.ΦA stgRest; rw [scopedRest1_eq]; simp only [scM1_0, owns_whole]; try rfl

section Body

variable (c : Dev nD) (i : grid1.Coords)
  {arg2 : Memref sig .tc .vmem S512x256 .f32} (harg2 : arg2.IsWhole) {arg3 : Memref sig .tc .vmem S512x256 .f32} (harg3 : arg3.IsWhole)
  {arg4 : Memref sig .tc .vmem S256x1 .f32} (harg4 : arg4.IsWhole) {arg5 : Memref sig .tc .vmem S1x256 .f32} (harg5 : arg5.IsWhole)
  {arg6 : Memref sig .tc .vmem S256x256 .f32} (harg6 : arg6.IsWhole) {arg7 : Memref sig .tc .vmem S256x256 .f32} (harg7 : arg7.IsWhole)

def Run1 (x0 : Vec F S512x256 .f32) (x1 : Vec F S512x256 .f32) (x2 : Vec F S256x1 .f32) (x3 : Vec F S1x256 .f32)
    (P7 : sProp 𝕄) (LS0 : List (View.Piece (Elt F) S256x256 .f32)) : Prop :=
  ∀ (xi4 : Vec F S256x256 .f32) (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ P7
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
      ⊢ wp frame (wpE (defs₀ (F := F)) Variants.none c none) E (cc1__gcn_agg_kernel i arg2 harg2 arg3 harg3 arg4 harg4 arg5 harg5 arg6 harg6 arg7 harg7) K

set_option maxHeartbeats 4000000 in
noncomputable def kernelRun1_A (hc0 : cond1_0 i) (hc1 : ¬cond1_1 i)
    (x0 : Vec F S512x256 .f32) (x1 : Vec F S512x256 .f32) (x2 : Vec F S256x1 .f32) (x3 : Vec F S1x256 .f32) :
    Σ' (L4 : List (View.Piece (Elt F) S256x256 .f32)), { LS0 // Run1 c i harg2 harg3 harg4 harg5 harg6 harg7 x0 x1 x2 x3 iprop(∃ d, owns (c : Thread nD τ) arg7 fullShare d) LS0 } := by
  refine ⟨[], ?_, fun xi4 E K => ?run⟩
  case run =>
    simp only [cc1__gcn_agg_kernel_eq_skeleton]; unfold cc1__gcn_agg_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
noncomputable def kernelRun1_B (hc0 : ¬cond1_0 i) (hc1 : ¬cond1_1 i)
    (x0 : Vec F S512x256 .f32) (x1 : Vec F S512x256 .f32) (x2 : Vec F S256x1 .f32) (x3 : Vec F S1x256 .f32) (xs0 : Vec F S256x256 .f32) :
    Σ' (L4 : List (View.Piece (Elt F) S256x256 .f32)), { LS0 // Run1 c i harg2 harg3 harg4 harg5 harg6 harg7 x0 x1 x2 x3 (owns (c : Thread nD τ) arg7 fullShare xs0) LS0 } := by
  refine ⟨[], ?_, fun xi4 E K => ?run⟩
  case run =>
    simp only [cc1__gcn_agg_kernel_eq_skeleton]; unfold cc1__gcn_agg_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
noncomputable def kernelRun1_C (hc0 : ¬cond1_0 i) (hc1 : cond1_1 i)
    (x0 : Vec F S512x256 .f32) (x1 : Vec F S512x256 .f32) (x2 : Vec F S256x1 .f32) (x3 : Vec F S1x256 .f32) (xs0 : Vec F S256x256 .f32) :
    Σ' (L4 : List (View.Piece (Elt F) S256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_agg_kernel i arg2 harg2 arg3 harg3 arg4 harg4 arg5 harg5 arg6 harg6 arg7 harg7) K } := by
  refine ⟨?_, ?_, fun E K => ?run⟩
  case run =>
    simp only [cc1__gcn_agg_kernel_eq_skeleton]; unfold cc1__gcn_agg_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

def out1_A_4 (hc0 : cond1_0 i) (hc1 : ¬cond1_1 i)
    (x0 : Vec F S512x256 .f32) (x1 : Vec F S512x256 .f32) (x2 : Vec F S256x1 .f32) (x3 : Vec F S1x256 .f32) : Vec F S256x256 .f32 :=
  VO1_4.read (Elt F) (VO1_4.writes (Elt F) VO1_4.junk (kernelRun1_A c i harg2 harg3 harg4 harg5 harg6 harg7 hc0 hc1 x0 x1 x2 x3).1)

def sout1_A_0 (hc0 : cond1_0 i) (hc1 : ¬cond1_1 i)
    (x0 : Vec F S512x256 .f32) (x1 : Vec F S512x256 .f32) (x2 : Vec F S256x1 .f32) (x3 : Vec F S1x256 .f32) : Vec F S256x256 .f32 :=
  VS1_0.read (Elt F) (VS1_0.writes (Elt F) VS1_0.junk (kernelRun1_A c i harg2 harg3 harg4 harg5 harg6 harg7 hc0 hc1 x0 x1 x2 x3).2.1)

def out1_B_4 (hc0 : ¬cond1_0 i) (hc1 : ¬cond1_1 i)
    (x0 : Vec F S512x256 .f32) (x1 : Vec F S512x256 .f32) (x2 : Vec F S256x1 .f32) (x3 : Vec F S1x256 .f32) (xs0 : Vec F S256x256 .f32) : Vec F S256x256 .f32 :=
  VO1_4.read (Elt F) (VO1_4.writes (Elt F) VO1_4.junk (kernelRun1_B c i harg2 harg3 harg4 harg5 harg6 harg7 hc0 hc1 x0 x1 x2 x3 xs0).1)

def sout1_B_0 (hc0 : ¬cond1_0 i) (hc1 : ¬cond1_1 i)
    (x0 : Vec F S512x256 .f32) (x1 : Vec F S512x256 .f32) (x2 : Vec F S256x1 .f32) (x3 : Vec F S1x256 .f32) (xs0 : Vec F S256x256 .f32) : Vec F S256x256 .f32 :=
  VS1_0.read (Elt F) (VS1_0.writes (Elt F) VS1_0.junk (kernelRun1_B c i harg2 harg3 harg4 harg5 harg6 harg7 hc0 hc1 x0 x1 x2 x3 xs0).2.1)

def out1_C_4 (hc0 : ¬cond1_0 i) (hc1 : cond1_1 i)
    (x0 : Vec F S512x256 .f32) (x1 : Vec F S512x256 .f32) (x2 : Vec F S256x1 .f32) (x3 : Vec F S1x256 .f32) (xs0 : Vec F S256x256 .f32) : Vec F S256x256 .f32 :=
  VO1_4.read (Elt F) (VO1_4.writes (Elt F) VO1_4.junk (kernelRun1_C c i harg2 harg3 harg4 harg5 harg6 harg7 hc0 hc1 x0 x1 x2 x3 xs0).1)

def sout1_C_0 (hc0 : ¬cond1_0 i) (hc1 : cond1_1 i)
    (x0 : Vec F S512x256 .f32) (x1 : Vec F S512x256 .f32) (x2 : Vec F S256x1 .f32) (x3 : Vec F S1x256 .f32) (xs0 : Vec F S256x256 .f32) : Vec F S256x256 .f32 :=
  VS1_0.read (Elt F) (VS1_0.writes (Elt F) VS1_0.junk (kernelRun1_C c i harg2 harg3 harg4 harg5 harg6 harg7 hc0 hc1 x0 x1 x2 x3 xs0).2.1)

end Body

def ptA (c : Dev nD) (t : Fin cfg1.N) (h0 : t.val % 16 = 0) (h1 : ¬t.val % 16 = 15) : Vec F S256x256 .f32 × Vec F S256x256 .f32 :=
  (out1_A_4 c (grid1.coords t) (hs1_0 t) (hs1_1 t) (hs1_2 t) (hs1_3 t) (hs1_4 t) hsc1_0 ((hcond1_0 t).mpr h0) (fun h => h1 ((hcond1_1 t).mp h)) (iblk1 V c 0 t) (iblk1 V c 1 t) (iblk1 V c 2 t) (iblk1 V c 3 t),
   sout1_A_0 c (grid1.coords t) (hs1_0 t) (hs1_1 t) (hs1_2 t) (hs1_3 t) (hs1_4 t) hsc1_0 ((hcond1_0 t).mpr h0) (fun h => h1 ((hcond1_1 t).mp h)) (iblk1 V c 0 t) (iblk1 V c 1 t) (iblk1 V c 2 t) (iblk1 V c 3 t))

def ptB (c : Dev nD) (t : Fin cfg1.N) (h0 : ¬t.val % 16 = 0) (h1 : ¬t.val % 16 = 15) (xs : Vec F S256x256 .f32) : Vec F S256x256 .f32 × Vec F S256x256 .f32 :=
  (out1_B_4 c (grid1.coords t) (hs1_0 t) (hs1_1 t) (hs1_2 t) (hs1_3 t) (hs1_4 t) hsc1_0 (fun h => h0 ((hcond1_0 t).mp h)) (fun h => h1 ((hcond1_1 t).mp h)) (iblk1 V c 0 t) (iblk1 V c 1 t) (iblk1 V c 2 t) (iblk1 V c 3 t) xs,
   sout1_B_0 c (grid1.coords t) (hs1_0 t) (hs1_1 t) (hs1_2 t) (hs1_3 t) (hs1_4 t) hsc1_0 (fun h => h0 ((hcond1_0 t).mp h)) (fun h => h1 ((hcond1_1 t).mp h)) (iblk1 V c 0 t) (iblk1 V c 1 t) (iblk1 V c 2 t) (iblk1 V c 3 t) xs)

def ptC (c : Dev nD) (t : Fin cfg1.N) (h0 : ¬t.val % 16 = 0) (h1 : t.val % 16 = 15) (xs : Vec F S256x256 .f32) : Vec F S256x256 .f32 × Vec F S256x256 .f32 :=
  (out1_C_4 c (grid1.coords t) (hs1_0 t) (hs1_1 t) (hs1_2 t) (hs1_3 t) (hs1_4 t) hsc1_0 (fun h => h0 ((hcond1_0 t).mp h)) ((hcond1_1 t).mpr h1) (iblk1 V c 0 t) (iblk1 V c 1 t) (iblk1 V c 2 t) (iblk1 V c 3 t) xs,
   sout1_C_0 c (grid1.coords t) (hs1_0 t) (hs1_1 t) (hs1_2 t) (hs1_3 t) (hs1_4 t) hsc1_0 (fun h => h0 ((hcond1_0 t).mp h)) ((hcond1_1 t).mpr h1) (iblk1 V c 0 t) (iblk1 V c 1 t) (iblk1 V c 2 t) (iblk1 V c 3 t) xs)

def outsAt1 (c : Dev nD) : (n : ℕ) → n < cfg1.N → Vec F S256x256 .f32 × Vec F S256x256 .f32
  | 0, hn => ptA V c ⟨0, hn⟩ (Nat.zero_mod _) (by show ¬ (0 % 16 = 15); decide)
  | n + 1, hn =>
    if h0 : (n + 1) % 16 = 0 then
      if h1 : (n + 1) % 16 = 15 then
        False.elim (by omega)
      else
        ptA V c ⟨n + 1, hn⟩ h0 h1
    else
      if h1 : (n + 1) % 16 = 15 then
        ptC V c ⟨n + 1, hn⟩ h0 h1 (outsAt1 c n (Nat.lt_of_succ_lt hn)).2
      else
        ptB V c ⟨n + 1, hn⟩ h0 h1 (outsAt1 c n (Nat.lt_of_succ_lt hn)).2

theorem outsAt1_A (c : Dev nD) (t : Fin cfg1.N) (h0 : t.val % 16 = 0) (h1 : ¬t.val % 16 = 15) :
    outsAt1 V c t.val t.isLt = ptA V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = ptB V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = ptC V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => stgRest c (owns (c : Thread nD τ) scM1_0 fullShare (outsAt1 V c n hn).2)

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) :
    PhiS1 V c n h = stgRest c (owns (c : Thread nD τ) scM1_0 fullShare (outsAt1 V c (n - 1) (by omega)).2) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => by unfold Dat.blockOf; dsimp only [dat1]; unfold iblk1; rfl) t d).trans
    (by unfold Dat.fetched Dat.blockOf; dsimp only [dat1]; unfold iblk1; rfl)
theorem before1_1 (c : Dev nD) (t : Fin cfg1.N) (d) : (dat1 V c).before 1 t d = iblk1 V c 1 t :=
  ((dat1 V c).before_in_eq_fetched 1 rfl (fun _ => rfl) (fun _ _ _ => rfl) (fun _ => by unfold Dat.blockOf; dsimp only [dat1]; unfold iblk1; rfl) t d).trans
    (by unfold Dat.fetched Dat.blockOf; dsimp only [dat1]; unfold iblk1; rfl)
theorem before1_2 (c : Dev nD) (t : Fin cfg1.N) (d) : (dat1 V c).before 2 t d = iblk1 V c 2 t :=
  ((dat1 V c).before_in_eq_fetched 2 rfl (fun _ => rfl) (fun _ _ _ => rfl) (fun _ => by unfold Dat.blockOf; dsimp only [dat1]; unfold iblk1; rfl) t d).trans
    (by unfold Dat.fetched Dat.blockOf; dsimp only [dat1]; unfold iblk1; rfl)
theorem before1_3 (c : Dev nD) (t : Fin cfg1.N) (d) : (dat1 V c).before 3 t d = iblk1 V c 3 t :=
  ((dat1 V c).before_in_eq_fetched 3 rfl (fun _ => rfl) (fun _ _ _ => rfl) (fun _ => by unfold Dat.blockOf; dsimp only [dat1]; unfold iblk1; rfl) t d).trans
    (by unfold Dat.fetched Dat.blockOf; dsimp only [dat1]; unfold iblk1; rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem close1 (c : Dev nD) (t : Fin cfg1.N) {S P7 : sProp 𝕄} {LS0 : List (View.Piece (Elt F) S256x256 .f32)}
    (hrun : Run1 c (grid1.coords t) (hs1_0 t) (hs1_1 t) (hs1_2 t) (hs1_3 t) (hs1_4 t) hsc1_0 (iblk1 V c 0 t) (iblk1 V c 1 t) (iblk1 V c 2 t) (iblk1 V c 3 t) P7 LS0)
    (hcov : ∀ y, ∃ pc ∈ LS0, y ∈ pc.1.set) (hP : S ⊢ P7) :
    iprop(stgRest c S ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d)))
    ⊢ wp frame (wpE (defs₀ (F := F)) Variants.none c none) Set.univ (bodyAt1 t) (fun _ =>
      iprop(stgRest c (owns (c : Thread nD τ) scM1_0 fullShare (VS1_0.read (Elt F) (VS1_0.writes (Elt F) VS1_0.junk LS0))) ∗ (dat1 V c).owesAt () t.castSucc
        ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare (iblk1 V c 3 t) ∗ (∃ d, owns (c : Thread nD τ) (ms1_4 t) fullShare ((dat1 V c).before 4 t d)))) := by
  simp only [before1_0, before1_1, before1_2, before1_3]
  unfold stgRest
  iintro ⟨⟨⟨R0, R1, R2, R3, R4, R5, R6, HS0⟩, Hg⟩, Ho, ⟨%d0, H0⟩, ⟨%d1, H1⟩, ⟨%d2, H2⟩, ⟨%d3, H3⟩, ⟨%d4, H4⟩⟩
  iapply (hrun _ Set.univ _)
  isplitl [H0]; · iexact H0
  isplitl [H1]; · iexact H1
  isplitl [H2]; · iexact H2
  isplitl [H3]; · iexact H3
  isplitl [H4]; · iexact H4
  isplitl [HS0]; · iapply hP; iexact HS0
  iintro ⟨H0, H1, H2, H3, H4, ⟨%es0, HS0⟩⟩
  isplitl [R0 R1 R2 R3 R4 R5 R6 HS0 Hg]
  · isplitl [R0 R1 R2 R3 R4 R5 R6 HS0]
    · isplitl [R0]; · iexact R0
      isplitl [R1]; · iexact R1
      isplitl [R2]; · iexact R2
      isplitl [R3]; · iexact R3
      isplitl [R4]; · iexact R4
      isplitl [R5]; · iexact R5
      isplitl [R6]; · iexact R6
      unfold owns; iexists _; isplitr
      swap; · iexact HS0
      ipureintro; exact View.read_writes_of_cover _ _ _ _ _ hcov
    iexact Hg
  isplitl [Ho]; · iexact Ho
  isplitl [H0]; · iexact H0
  isplitl [H1]; · iexact H1
  isplitl [H2]; · iexact H2
  isplitl [H3]; · iexact H3
  iexists _; iexact H4

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [show (dat1 V c).owesAt () t.succ = (dat1 V c).owesAt () t.castSucc from rfl,
    show (dat1 V c).Φ t.succ = stgRest c (owns (c : Thread nD τ) scM1_0 fullShare (outsAt1 V c t.val t.isLt).2) from rfl,
    show (dat1 V c).leavesExact 0 t = owns (c : Thread nD τ) (ms1_0 t) fullShare ((dat1 V c).after 0 t) from by
      unfold Dat.leavesExact; rw [liveAt1_0 t], show (dat1 V c).after 0 t = iblk1 V c 0 t from by dsimp only [dat1],
    show (dat1 V c).leavesExact 1 t = owns (c : Thread nD τ) (ms1_1 t) fullShare ((dat1 V c).after 1 t) from by
      unfold Dat.leavesExact; rw [liveAt1_1 t], show (dat1 V c).after 1 t = iblk1 V c 1 t from by dsimp only [dat1],
    show (dat1 V c).leavesExact 2 t = owns (c : Thread nD τ) (ms1_2 t) fullShare ((dat1 V c).after 2 t) from by
      unfold Dat.leavesExact; rw [liveAt1_2 t], show (dat1 V c).after 2 t = iblk1 V c 2 t from by dsimp only [dat1],
    show (dat1 V c).leavesExact 3 t = owns (c : Thread nD τ) (ms1_3 t) fullShare ((dat1 V c).after 3 t) from by
      unfold Dat.leavesExact; rw [liveAt1_3 t], show (dat1 V c).after 3 t = iblk1 V c 3 t from by dsimp only [dat1], PhiS1_castSucc V c t]
  have hN : t.val < 512 := lt_of_lt_of_eq t.isLt (show cfg1.N = 512 from N_1)
  by_cases h0 : t.val % 16 = 0
  · have h1 : ¬t.val % 16 = 15 := by omega
    rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h))),
      outsAt1_A V c t h0 h1]
    unfold ptA sout1_A_0; (try dsimp only)
    by_cases hz : t.val = 0
    · rw [PhiS1_zero V c _ _ hz, PhiA1_eq]
      exact close1 V c t (kernelRun1_A c (grid1.coords t) _ _ _ _ _ _ ((hcond1_0 t).mpr h0) (fun h => h1 ((hcond1_1 t).mp h)) (iblk1 V c 0 t) (iblk1 V c 1 t) (iblk1 V c 2 t) (iblk1 V c 3 t)).2.2
        (View.cover_of_tiledL _ S256x256.size (by sl_kernel_rfl)) .rfl
    · rw [PhiS1_pos V c _ _ hz]
      refine close1 V c t (kernelRun1_A c (grid1.coords t) _ _ _ _ _ _ ((hcond1_0 t).mpr h0) (fun h => h1 ((hcond1_1 t).mp h)) (iblk1 V c 0 t) (iblk1 V c 1 t) (iblk1 V c 2 t) (iblk1 V c 3 t)).2.2
        (View.cover_of_tiledL _ S256x256.size (by sl_kernel_rfl)) ?_
      iintro H; iexists _; iexact H
  · have hz : t.val ≠ 0 := by omega
    rw [PhiS1_pos V c _ _ hz]
    by_cases h1 : t.val % 16 = 15
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4, outsAt1_C V c t h0 h1]
      unfold ptC out1_C_4 sout1_C_0 bodyAt1 stgRest; (try dsimp only)
      simp only [before1_0, before1_1, before1_2, before1_3]
      iintro ⟨⟨⟨R0, R1, R2, R3, R4, R5, R6, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [R0 R1 R2 R3 R4 R5 R6 HS0 Hg]
      · isplitl [R0 R1 R2 R3 R4 R5 R6 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (View.cover_of_tiledL _ S256x256.size (by sl_kernel_rfl))
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (View.cover_of_tiledL _ S256x256.size (by sl_kernel_rfl))
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h))),
        outsAt1_B V c t h0 h1]
      unfold ptB sout1_B_0; (try dsimp only)
      exact close1 V c t (kernelRun1_B c (grid1.coords t) _ _ _ _ _ _ (fun h => h0 ((hcond1_0 t).mp h)) (fun h => h1 ((hcond1_1 t).mp h)) (iblk1 V c 0 t) (iblk1 V c 1 t) (iblk1 V c 2 t) (iblk1 V c 3 t) _).2.2
        (View.cover_of_tiledL _ S256x256.size (by sl_kernel_rfl)) .rfl

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold stgRest
  iintro ⟨⟨R0, R1, R2, R3, R4, R5, R6, HS0⟩, Hg⟩
  isplitl [R0 R1 R2 R3 R4 R5 R6 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexists _; iexact HS0
  iexact Hg

theorem hout1 (c : Dev nD) : (dat1 V c).Φ (Fin.last cfg1.N) ⊢ Pipeline.ΦA spec1 c :=
  Phi_out1 V c _ (by rw [Fin.val_last]; have : cfg1.N = 512 := N_1; omega)

end Cert.ReferenceIdeal.Hand

end
-- ==== Proof.ReferenceIdeal.Run.lean ====
import proofs.«123510_g2000706009674355_pallasbulk_102_2_alg».proof.Proof.Gen.ReferenceIdeal.Regions
import proofs.«123510_g2000706009674355_pallasbulk_102_2_alg».proof.Proof.ReferenceIdeal.R0
import proofs.«123510_g2000706009674355_pallasbulk_102_2_alg».proof.Proof.ReferenceIdeal.R1
import Idealize.ShloMosaic.Lib.Pipeline.RegionsLoop
import Idealize.ShloMosaic.Lib.Pipeline.FrameSuffix

/-! The reference's two regions in order. -/

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev atTc (W : Dev nD → Valuation τ sig (Elt F)) : (c : Dev nD) → (b : Ref sig .tc) → Buf (Elt F) ((c : Thread nD τ).loc b) :=
  fun c b => W c b

def outsA : Outs (F := F) := fun _ r c => m ((c : Thread nD τ).loc r)

def X2 (c : Dev nD) : Valuation τ sig (Elt F) :=
  Pipeline.withArrays spec0 c (V1 m c) fun w => (dat0 (atTc (V1 m)) c).arrAt w cfg0.N

def outsB : Outs (F := F)
  | 2 => fun r c => X2 m c r
  | n => outsA m n

def X3 (c : Dev nD) : Valuation τ sig (Elt F) :=
  Pipeline.withArrays spec1 c (V2 m (outsB m) c) fun w => (dat1 (atTc (V2 m (outsB m))) c).arrAt w cfg1.N

def outsD : Outs (F := F)
  | 2 => fun r c => X2 m c r
  | 3 => fun r c => X3 m c r
  | n => outsA m n

theorem V2_D (c : Dev nD) : V2 m (outsD m) c = V2 m (outsB m) c := rfl

abbrev 𝒱₀ : Variants := Variants.none

abbrev L : GSem nD τ sig → Finset Unit := fun _ => ∅
abbrev lv : GSem nD τ sig → Unit → ℕ := fun _ _ => 0

abbrev Rest (c : Dev nD) : sProp 𝕄 := iprop((∃ r, prngReg c r) ∗ ∃ W, owes (c : Thread nD τ) (0 : CellTallies nD τ sig Unit) W)
abbrev E : Fin 3 → Dev nD → sProp 𝕄 := fun _ c => Rest (F := F) c

def pdats : (p : Fin 2) → (c : Dev nD) → Dat τ (Elt F) Unit ℕ (UR sig nD τ) ℕ (cfgs p) c
  | ⟨0, _⟩ => fun c => dat0 (atTc (V1 m)) c
  | ⟨1, _⟩ => fun c => dat1 (atTc (V2 m (outsB m))) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def mkReg (p : Fin 2) (lf : Pipeline.LaunchFacts (nD := nD) (τ := τ) cfgs p) (Vi Vo : (c : Dev nD) → Valuation τ sig (Elt F))
    (hb : ∀ c, BodyObligation (pdats m p c) (defs₀ (F := F)) 𝒱₀ () Set.univ)
    (hq : ∀ c w, (pdats m p c).q w = fullShare) (ho : ∀ c t, (pdats m p c).owed t = 0) (hrec : ∀ c, (pdats m p c).recorded 0 = Set.univ)
    (hA : ∀ c w, (pdats m p c).A w = atTc Vi c (Pipeline.arrRef (cfgs p).spec w))
    (hin : ∀ c, Pipeline.ΦA (cfgs p).spec c ⊢ (pdats m p c).Φ 0)
    (hout : ∀ c, (pdats m p c).Φ (Fin.last (cfgs p).N) ⊢ Pipeline.ΦA (cfgs p).spec c)
    (hF : ∀ c w, (pdats m p c).arrAt w (cfgs p).N = atTc Vo c (Pipeline.arrRef (cfgs p).spec w))
    (hrest : ∀ c b, b ∉ Finset.univ.image (Pipeline.arrRef (cfgs p).spec) → atTc Vo c b = atTc Vi c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Vi c) ∗ (∃ r, prngReg c r) ∗ ∃ W, owes (c : Thread nD τ) (0 : CellTallies nD τ sig Unit) W)
  post c := iprop(StableHlo.held (c : Thread nD τ) (Pipeline.ucRefs τ sig) (Vo c) ∗ (∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) (cfgs p).spec c (atTc Vi c)
  hentry c := by
    rw [Pipeline.ownSems0_none]
    have hsplit := Pipeline.arrays_of_unscopedBufs (p := p) (pcfgs (F := F)) adm (pdats m) lf.win lf.arr_whole c
      ((pdats m p c).share_full (hq c)) (atTc Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c]
      icases HO with ⟨%W, HO⟩; iexists W; isplitr; · ipureintro; exact fun _ _ => Or.inl (hrec c ▸ trivial)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atTc Vi c) (atTc Vo c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c]
    icases HO with ⟨%W, -, HO⟩; iexists W; iexact HO

theorem hF0 (c : Dev nD) (w : Fin cfg0.W) :
    (pdats m 0 c).arrAt w cfg0.N = atTc (V2 m (outsD m)) c (Pipeline.arrRef spec0 w) := by
  match w with
  | ⟨0, _⟩ =>
    exact (((pdats m 0 c).arrAt_in 0 rfl _).trans (A_eq0 (atTc (V1 m)) c 0)).trans (V2_of m (outsD m) c main_call0_v6 (by decide)).symm
  | ⟨1, _⟩ =>
    exact (((pdats m 0 c).arrAt_in 1 rfl _).trans (A_eq0 (atTc (V1 m)) c 1)).trans (V2_of m (outsD m) c main_call0_v10 (by decide)).symm
  | ⟨2, _⟩ =>
    exact (((pdats m 0 c).arrAt_in 2 rfl _).trans (A_eq0 (atTc (V1 m)) c 2)).trans (V2_of m (outsD m) c main_call0_v16 (by decide)).symm
  | ⟨3, _⟩ =>
    show _ = Function.update (V1 m c) main_call0_v17 (outsD m 2 main_call0_v17 c) main_call0_v17
    rw [Function.update_self]
    show (dat0 (atTc (V1 m)) c).arrAt 3 cfg0.N = X2 m c (Proc.devRef .tc main_call0_v17)
    unfold X2
    exact (Pipeline.withArrays_arr spec0 launch0.win.arr_inj c (V1 m c) (fun w => (dat0 (atTc (V1 m)) c).arrAt w cfg0.N) 3).symm

theorem hrest0 (c : Dev nD) : ∀ b, b ∉ Finset.univ.image (Pipeline.arrRef spec0) → atTc (V2 m (outsD m)) c b = atTc (V1 m) c b :=
  fun b hb => V2_of m (outsD m) c b fun h =>
    hb (Finset.mem_image.mpr ⟨3, Finset.mem_univ _, (List.mem_singleton.mp h).symm⟩)

theorem hF1 (c : Dev nD) (w : Fin cfg1.W) :
    (pdats m 1 c).arrAt w cfg1.N = atTc (V3 m (outsD m)) c (Pipeline.arrRef spec1 w) := by
  match w with
  | ⟨0, _⟩ =>
    exact (((pdats m 1 c).arrAt_in 0 rfl _).trans (A_eq1 (atTc (V2 m (outsB m))) c 0)).trans (V3_of m (outsD m) c main_call0_v8 (by decide)).symm
  | ⟨1, _⟩ =>
    exact (((pdats m 1 c).arrAt_in 1 rfl _).trans (A_eq1 (atTc (V2 m (outsB m))) c 1)).trans (V3_of m (outsD m) c main_call0_v17 (by decide)).symm
  | ⟨2, _⟩ =>
    exact (((pdats m 1 c).arrAt_in 2 rfl _).trans (A_eq1 (atTc (V2 m (outsB m))) c 2)).trans (V3_of m (outsD m) c main_call0_v16 (by decide)).symm
  | ⟨3, _⟩ =>
    exact (((pdats m 1 c).arrAt_in 3 rfl _).trans (A_eq1 (atTc (V2 m (outsB m))) c 3)).trans (V3_of m (outsD m) c main_call0_v13 (by decide)).symm
  | ⟨4, _⟩ =>
    show _ = Function.update (V2 m (outsD m) c) main_v0 (outsD m 3 main_v0 c) main_v0
    rw [Function.update_self]
    show (dat1 (atTc (V2 m (outsB m))) c).arrAt 4 cfg1.N = X3 m c (Proc.devRef .tc main_v0)
    unfold X3
    exact (Pipeline.withArrays_arr spec1 launch1.win.arr_inj c (V2 m (outsB m) c) (fun w => (dat1 (atTc (V2 m (outsB m))) c).arrAt w cfg1.N) 4).symm

theorem hrest1 (c : Dev nD) : ∀ b, b ∉ Finset.univ.image (Pipeline.arrRef spec1) → atTc (V3 m (outsD m)) c b = atTc (V2 m (outsB m)) c b :=
  fun b hb => V3_of m (outsD m) c b fun h =>
    hb (Finset.mem_image.mpr ⟨4, Finset.mem_univ _, (List.mem_singleton.mp h).symm⟩)

def reg0 : Pipeline.RegionSeg (pcfgs (F := F)) adm (pdats m) () defs₀ 𝒱₀ L lv 0 :=
  mkReg m 0 launch0 (V1 m) (V2 m (outsD m)) (body_obligation0 (atTc (V1 m))) (fun _ _ => rfl) (fun _ _ => rfl) (fun _ => rfl)
    (A_eq0 (atTc (V1 m))) (hin0 (atTc (V1 m))) (hout0 (atTc (V1 m))) (hF0 m) (hrest0 m)

def reg1 : Pipeline.RegionSeg (pcfgs (F := F)) adm (pdats m) () defs₀ 𝒱₀ L lv 1 :=
  mkReg m 1 launch1 (V2 m (outsB m)) (V3 m (outsD m)) (body_obligation1 (atTc (V2 m (outsB m)))) (fun _ _ => rfl) (fun _ _ => rfl) (fun _ => rfl)
    (A_eq1 (atTc (V2 m (outsB m)))) (hin1 (atTc (V2 m (outsB m)))) (hout1 (atTc (V2 m (outsB m)))) (hF1 m) (hrest1 m)

abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, HO⟩; iexact HO

set_option backward.isDefEq.respectTransparency.types false in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m (EP := emb₁) (ι := ()) (𝒱₀ := 𝒱₀) (L := L) (lv := lv) (hL := fun _ _ => rfl) (ρ := ρ) (outs := outsD m) (pdats := pdats m)
    (O₀ := 0) (G := fun _ => iprop(emp)) (u₀ := u₀) (hu₀ := hu₀) (E := E) (hE0 := hE0 ρ) (hE2 := hE2)
    (R0 := reg0 m) (hpre0 := fun c => .rfl) (hpost0 := fun c => .rfl)
    (R1 := reg1 m) (hpre1 := fun c => .rfl) (hpost1 := fun c => .rfl)

end Cert.ReferenceIdeal.Hand

end
-- ==== Proof.ReferenceIdeal.RunValue.lean ====
import proofs.«123510_g2000706009674355_pallasbulk_102_2_alg».proof.Proof.ReferenceIdeal.Run

/-! The reference's run, keeping the value its last region leaves. -/

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V3_result (c : Dev nD) : V3 m (outsD m) c main_v0 = X3 m c main_v0 := by
  show Function.update (V2 m (outsD m) c) main_v0 (outsD m 3 main_v0 c) main_v0 = _
  rw [Function.update_self]
  rfl

theorem join_rest (HH EE : Dev nD → sProp 𝕄) :
    iprop(bigSep Finset.univ HH ∗ bigSep Finset.univ EE) ⊢ bigSep Finset.univ (fun c => iprop(HH c ∗ EE c)) := by
  rw [bigSep_sep']

set_option backward.isDefEq.respectTransparency.types false in
theorem run_value : θ_run defs (onTc (τ := τ) (main (F := F))) ⟨m, fun _ => 0, ρ⟩ (fun r => ∀ c : Dev nD,
      r.2.mem ((c.tc : Thread nD τ).loc main_v0) = X3 m c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats m) () cellOf_inj emb₁ defs₀ 𝒱₀ L lv m ρ main
    (segs m 𝒱₀ L lv E () (pdats m) (reg0 m) (reg1 m))
    (fun c Q => by
      rewrite [main_chain c, Seg.run_eq_chain,
        show (segs m 𝒱₀ L lv E () (pdats m) (reg0 m) (reg1 m) c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide) 0 (fun _ _ => rfl) (fun _ => iprop(emp)) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m (outsD m) c))
    (hch := fun c => ⟨.rfl, .rfl, .rfl, sep_mono .rfl (hE2 c)⟩)
    (hinit := ?_) (QY := fun c s => s.mem ((c.tc : Thread nD τ).loc main_v0) = X3 m c main_v0 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    iapply (join_rest (F := F) (fun c : Dev nD => StableHlo.held (c : Thread nD τ) (Pipeline.ucRefs τ sig) (V0 m c)) (E (F := F) 0))
    isplitl [Hh]; · iexact Hh
    iexact HE
  · unfold StableHlo.held
    iintro ⟨Hh, HSI⟩
    ihave Hr := (pointsTo_read_all (Pipeline.ucRefs τ sig) (fun b => ((c : Thread nD τ).1, b)) (V3 m (outsD m) c) s') $$ [Hh HSI]
    · isplitl [Hh] <;> iassumption
    icases Hr with ⟨%h, HSI⟩
    imodintro
    isplitr
    · ipureintro
      exact ⟨(h (Proc.devRef .tc main_v0) (Finset.mem_filter.mpr ⟨StableHlo.devRef_mem_tcRefs main_v0, by decide⟩)).trans (V3_result m c),
        (h (Proc.devRef .tc main_arg0) (Finset.mem_filter.mpr ⟨StableHlo.devRef_mem_tcRefs main_arg0, by decide⟩)).trans (V3_main_arg0 m (outsD m) c),
        (h (Proc.devRef .tc main_arg1) (Finset.mem_filter.mpr ⟨StableHlo.devRef_mem_tcRefs main_arg1, by decide⟩)).trans (V3_main_arg1 m (outsD m) c),
        (h (Proc.devRef .tc main_arg2) (Finset.mem_filter.mpr ⟨StableHlo.devRef_mem_tcRefs main_arg2, by decide⟩)).trans (V3_main_arg2 m (outsD m) c),
        (h (Proc.devRef .tc main_arg3) (Finset.mem_filter.mpr ⟨StableHlo.devRef_mem_tcRefs main_arg3, by decide⟩)).trans (V3_main_arg3 m (outsD m) c)⟩
    · iexact HSI

end Cert.ReferenceIdeal.Hand

end
-- ==== Proof.Spec.lean ====
import Idealize.ShloMosaic.PureOps.Ideal.Laws
import Idealize.ShloMosaic.Lib.ValueIdx

/-! The common formula: the column sums, d, and y. -/

noncomputable section

namespace Cert.Spec

open Idealize.ShloMosaic

abbrev Z : EReal := Ideal.ofBits .f32 0x00000000#32

theorem Z_eq : Z = 0 := Ideal.ofBits_zero_f32

def dinvOf (d : EReal) : EReal :=
  Scalar.select (FloatOps.cmpf (F := Ideal) (φ := .f32) .ogt d Z) (FloatOps.rsqrt (F := Ideal) (φ := .f32) d) Z

theorem foldl_add_eq_sum {M : Type*} [AddCommMonoid M] (p : ℕ → M) (n : ℕ) :
    (List.range n).foldl (fun acc k => acc + p k) 0 = ∑ k ∈ Finset.range n, p k := by
  induction n with
  | zero => simp
  | succ n ih => rw [List.range_succ, List.foldl_append, ih, Finset.sum_range_succ]; rfl

theorem sum_range_mul {M : Type*} [AddCommMonoid M] (a : ℕ → M) (n b : ℕ) :
    ∑ i ∈ Finset.range (n * b), a i = ∑ r ∈ Finset.range n, ∑ i ∈ Finset.range b, a (b * r + i) := by
  induction n with
  | zero => simp
  | succ n ih =>
    rw [Nat.succ_mul, Finset.sum_range_add, ih, Finset.sum_range_succ, Nat.mul_comm n b]

end Cert.Spec

end
-- ==== Proof.KernelIdeal.Val0.lean ====
import proofs.«123510_g2000706009674355_pallasbulk_102_2_alg».proof.Proof.KernelIdeal.R0
import proofs.«123510_g2000706009674355_pallasbulk_102_2_alg».proof.Proof.Spec
import Idealize.ShloMosaic.Lib.Pipeline.Value

/-! Region 0's result at an index: d j = dinvOf (the sum of column j over the 32 row blocks). -/

noncomputable section

open scoped BigOperators

namespace Cert.KernelIdeal.Val0

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx

section Pieces
variable {F : FTy → Type} [FloatOps F]

theorem hz : (![0, 0] : Fin 2 → Nat) = fun _ => 0 := funext fun a => by fin_cases a <;> rfl

variable (c : Dev nD) (i : grid0.Coords) {a2 : Memref sig .tc .vmem S256x4096 .f32} (h2 : a2.IsWhole)
  {a3 : Memref sig .tc .vmem S1x4096 .f32} (h3 : a3.IsWhole) (x : Vec F S256x4096 .f32) (xo : Vec F S1x4096 .f32)

theorem out_B (hc0 : ¬cond0_0 i) (hc1 : ¬cond0_1 i) : outOf0 (kernelRun0_B c i h2 h3 x xo hc0 hc1).1 = k0_pay2 xo x := by
  unfold outOf0
  rw [View.read_writes_junk_eq_canon]
  unfold kernelRun0_B
  dsimp only
  sl_unfold_words
  rw [View.canon_unit_zero hz]
  simp only [View.readAt_eq_ld, h2.read_unread, h3.read_unread, View.ld_unit_zero (S := S1x4096) hz, View.ld_unit_zero (S := S256x4096) hz]

theorem out_A (hc0 : cond0_0 i) (hc1 : ¬cond0_1 i) : outOf0 (kernelRun0_A c i h2 h3 x hc0 hc1).1 = k0_pay2 (k0_pay1 (F := F)) x := by
  unfold outOf0
  rw [View.read_writes_junk_eq_canon]
  unfold kernelRun0_A
  dsimp only
  sl_unfold_words
  rw [View.canon_cons_unit_zero (S := S1x4096) hz, View.readCov_unit_zero (S := S1x4096) _ hz]
  simp only [View.readAt_eq_ld, h2.read_unread, View.ld_unit_zero (S := S256x4096) hz]

theorem out_C (hc0 : ¬cond0_0 i) (hc1 : cond0_1 i) : outOf0 (kernelRun0_C c i h2 h3 x xo hc0 hc1).1 = k0_pay3 (k0_pay2 xo x) := by
  unfold outOf0
  rw [View.read_writes_junk_eq_canon]
  unfold kernelRun0_C
  dsimp only
  sl_unfold_words
  rw [View.canon_cons_unit_zero (S := S1x4096) hz, View.readCov_unit_zero (S := S1x4096) _ hz]
  simp only [View.readAt_eq_ld, h2.read_unread, h3.read_unread, View.ld_unit_zero (S := S1x4096) hz, View.ld_unit_zero (S := S256x4096) hz]

end Pieces

theorem pay1_apply (i : S1x4096.Idx) : k0_pay1 (F := Ideal) i = Cert.Spec.Z := rfl

theorem pay2_apply (xo : Vec Ideal S1x4096 .f32) (x : Vec Ideal S256x4096 .f32) (p : Fin 1) (q : Fin 4096) :
    k0_pay2 xo x (ix2 p q) = xo (ix2 p q) + ∑ k : Fin 256, x (ix2 k q) := by
  unfold k0_pay2
  show (shapeCast S1x4096 xo shapeCasts_S1x4096_S1x4096) (ix2 p q)
      + (shapeCast S1x4096 (multiReduction (F := Ideal) .add [0] S4096 x 0x00000000#32 reduces_S256x4096_S4096 (.inl rfl) rfl) shapeCasts_S4096_S1x4096) (ix2 p q) = _
  refine congrArg₂ (· + ·) (congrFun (shapeCast_self xo shapeCasts_S1x4096_S1x4096) (ix2 p q)) ?_
  refine (shapeCast_addUnit_apply ![4096] _ shapeCasts_S4096_S1x4096 (ix2 p q)).trans ?_
  refine (Ideal.multiReduction_add_single x 0x00000000#32 reduces_S256x4096_S4096 (.inl rfl) rfl _).trans ?_
  refine Finset.sum_congr rfl fun k _ => congrArg x ?_
  funext a
  match a with
  | ⟨0, _⟩ => rfl
  | ⟨1, _⟩ => rfl

theorem pay3_apply (v : Vec Ideal S1x4096 .f32) (i : S1x4096.Idx) : k0_pay3 v i = Cert.Spec.dinvOf (v i) := by
  unfold k0_pay3
  show Scalar.select (FloatOps.cmpf (F := Ideal) (φ := .f32) .ogt (shapeCast S1x4096 v shapeCasts_S1x4096_S1x4096 i) Cert.Spec.Z)
      (FloatOps.rsqrt (F := Ideal) (φ := .f32) (shapeCast S1x4096 v shapeCasts_S1x4096_S1x4096 i)) Cert.Spec.Z = _
  have e := congrFun (shapeCast_self v shapeCasts_S1x4096_S1x4096) i
  unfold Cert.Spec.dinvOf
  exact congrArg (fun d : EReal => Scalar.select (FloatOps.cmpf (F := Ideal) (φ := .f32) .ogt d Cert.Spec.Z) (FloatOps.rsqrt (F := Ideal) (φ := .f32) d) Cert.Spec.Z) e

section Value
variable (V : (c : Dev nD) → (b : Ref sig .tc) → Buf (Elt Ideal) ((c : Thread nD τ).loc b))

abbrev xblk (c : Dev nD) (t : Fin cfg0.N) : Vec Ideal S256x4096 .f32 := iblk0 V c 0 t
abbrev garr (c : Dev nD) : Vec Ideal S8192x8192 .f32 := V c main_arg1

theorem idx_facts : ∀ t : Fin cfg0.N, win0_0.index t (0 : Fin 2) = t.val % 32 ∧ win0_0.index t (1 : Fin 2) = t.val / 32
    ∧ win0_1.index t (0 : Fin 2) = 0 ∧ win0_1.index t (1 : Fin 2) = t.val / 32 :=
  (by decide +kernel : ∀ t : Fin grid0.N, _)

theorem xblk_apply (c : Dev nD) (t : Fin cfg0.N) (k : Fin 256) (q : Fin 4096) (r : Fin 8192) (s : Fin 8192)
    (hr : r.val = 256 * (t.val % 32) + k.val) (hs : s.val = 4096 * (t.val / 32) + q.val) :
    xblk V c t (ix2 k q) = garr V c (ix2 r s) := by
  obtain ⟨e0, e1, -, -⟩ := idx_facts t
  show V c main_arg1 (((cfg0.win 0).blk t).view.emb (ix2 k q)) = V c main_arg1 (ix2 r s)
  refine congrArg (V c main_arg1) ?_
  funext a; apply Fin.ext
  match a with
  | ⟨0, _⟩ => show win0_0.index t (0 : Fin 2) * 256 + 1 * k.val = r.val; rw [e0, hr]; omega
  | ⟨1, _⟩ => show win0_0.index t (1 : Fin 2) * 4096 + 1 * q.val = s.val; rw [e1, hs]; omega

def bsum (c : Dev nD) (n : ℕ) (i : S1x4096.Idx) : EReal :=
  if h : n < cfg0.N then ∑ k : Fin 256, xblk V c ⟨n, h⟩ (ix2 k (i 1)) else 0

def aR (c : Dev nD) (n : ℕ) (h : n < cfg0.N) : S1x4096.Idx → EReal := k0_pay2 (k0_pay1 (F := Ideal)) (xblk V c ⟨n, h⟩)

def gR (c : Dev nD) (n : ℕ) (h : n < cfg0.N) (acc : S1x4096.Idx → EReal) : S1x4096.Idx → EReal :=
  if n % 32 = 31 then k0_pay3 (k0_pay2 acc (xblk V c ⟨n, h⟩)) else k0_pay2 acc (xblk V c ⟨n, h⟩)

theorem outs_reset (c : Dev nD) (n : ℕ) (h : n < cfg0.N) (h0 : n % 32 = 0) : outsAt0 V c n h = aR V c n h := by
  rw [outsAt0_A V c ⟨n, h⟩ h0]
  exact out_A (F := Ideal) c (grid0.coords ⟨n, h⟩) (hs0_0 ⟨n, h⟩) (hs0_1 ⟨n, h⟩) (iblk0 V c 0 ⟨n, h⟩) _ _

theorem outs_step (c : Dev nD) (n : ℕ) (h : n + 1 < cfg0.N) (h0 : ¬(n + 1) % 32 = 0) :
    outsAt0 V c (n + 1) h = gR V c (n + 1) h (outsAt0 V c n (Nat.lt_of_succ_lt h)) := by
  unfold gR
  by_cases h1 : (n + 1) % 32 = 31
  · rw [if_pos h1, outsAt0_C V c ⟨n + 1, h⟩ h0 h1]
    exact out_C (F := Ideal) c (grid0.coords ⟨n + 1, h⟩) (hs0_0 ⟨n + 1, h⟩) (hs0_1 ⟨n + 1, h⟩) (iblk0 V c 0 ⟨n + 1, h⟩) (outsAt0 V c n (Nat.lt_of_succ_lt h)) _ _
  · rw [if_neg h1, outsAt0_B V c ⟨n + 1, h⟩ h0 h1]
    exact out_B (F := Ideal) c (grid0.coords ⟨n + 1, h⟩) (hs0_0 ⟨n + 1, h⟩) (hs0_1 ⟨n + 1, h⟩) (iblk0 V c 0 ⟨n + 1, h⟩) (outsAt0 V c n (Nat.lt_of_succ_lt h)) _ _

theorem gR_last (c : Dev nD) (n : ℕ) (h : n < cfg0.N) (acc : S1x4096.Idx → EReal) (h31 : n % 32 = 31) :
    gR V c n h acc = k0_pay3 (k0_pay2 acc (xblk V c ⟨n, h⟩)) := by unfold gR; rw [if_pos h31]
theorem gR_mid (c : Dev nD) (n : ℕ) (h : n < cfg0.N) (acc : S1x4096.Idx → EReal) (h31 : ¬n % 32 = 31) :
    gR V c n h acc = k0_pay2 acc (xblk V c ⟨n, h⟩) := by unfold gR; rw [if_neg h31]

theorem outs_last (c : Dev nD) (q : ℕ) (h : 32 * q + 31 < cfg0.N) :
    outsAt0 V c (32 * q + 31) h = Pipeline.accAt (aR V c) (gR V c) (32 * q) 31 h :=
  Pipeline.eq_accAt (fun n h => outsAt0 V c n h) 32 (aR V c) (gR V c) (outs_reset V c) (outs_step V c) q 31 (by decide) h

theorem pay2_at (xo : Vec Ideal S1x4096 .f32) (x : Vec Ideal S256x4096 .f32) (i : S1x4096.Idx) :
    k0_pay2 xo x i = xo i + ∑ k : Fin 256, x (ix2 k (i 1)) :=
  (congrArg (k0_pay2 xo x) (eq_ix2 i)).trans ((pay2_apply xo x (i 0) (i 1)).trans (congrArg (fun y => xo y + ∑ k : Fin 256, x (ix2 k (i 1))) (eq_ix2 i).symm))

theorem last_sum (c : Dev nD) (q : ℕ) (h : 32 * q + 31 < cfg0.N) (i : S1x4096.Idx) :
    outsAt0 V c (32 * q + 31) h i = Cert.Spec.dinvOf (Cert.Spec.Z + ∑ s ∈ Finset.range 32, bsum V c (32 * q + s) i) := by
  rw [outs_last V c q h, Pipeline.accAt_succ, gR_last V c _ _ _ (by omega), pay3_apply, pay2_at]
  refine congrArg Cert.Spec.dinvOf ?_
  rw [Pipeline.accAt_add_apply (aR V c) (gR V c) (fun _ => Cert.Spec.Z) (bsum V c) (32 * q) 30
    (fun hb i => by
      unfold aR bsum; rw [dif_pos hb]
      exact pay2_at (k0_pay1 (F := Ideal)) (xblk V c ⟨32 * q, hb⟩) i)
    (fun n hn acc i h1 h2 => by
      rw [gR_mid V c n hn acc (by omega)]; unfold bsum; rw [dif_pos hn]
      exact pay2_at acc (xblk V c ⟨n, hn⟩) i)
    30 le_rfl _ i]
  rw [Finset.sum_range_succ _ 31, add_assoc]
  refine congrArg (fun y => Cert.Spec.Z + (∑ s ∈ Finset.range 31, bsum V c (32 * q + s) i + y)) ?_
  unfold bsum; rw [dif_pos h]

end Value

section Final
variable (V : (c : Dev nD) → (b : Ref sig .tc) → Buf (Elt Ideal) ((c : Thread nD τ).loc b))

theorem bsum_eq (c : Dev nD) (q s : ℕ) (hq : q < 2) (hs : s < 32) (i : S1x4096.Idx) (col : Fin 8192)
    (hcol : col.val = 4096 * q + (i 1).val) :
    bsum V c (32 * q + s) i = ∑ k : Fin 256, garr V c (ix2 ⟨(256 * s + k.val) % 8192, Nat.mod_lt _ (by decide)⟩ col) := by
  have hN : cfg0.N = 64 := N_0
  have hn : 32 * q + s < cfg0.N := by omega
  unfold bsum; rw [dif_pos hn]
  refine Finset.sum_congr rfl fun k _ => ?_
  have hk := k.isLt
  exact xblk_apply V c ⟨32 * q + s, hn⟩ k (i 1) _ col
    (by show (256 * s + k.val) % 8192 = 256 * ((32 * q + s) % 32) + k.val; omega)
    (by show col.val = 4096 * ((32 * q + s) / 32) + (i 1).val; omega)

theorem outs_congr (c : Dev nD) (n n' : ℕ) (h : n < cfg0.N) (h' : n' < cfg0.N) (e : n = n') :
    outsAt0 V c n h = outsAt0 V c n' h' := by subst e; rfl

theorem last_apply (c : Dev nD) (t : Fin cfg0.N) (h31 : t.val % 32 = 31) (i : S1x4096.Idx) (col : Fin 8192)
    (hcol : col.val = 4096 * (t.val / 32) + (i 1).val) :
    outsAt0 V c t.val t.isLt i
      = Cert.Spec.dinvOf (∑ r ∈ Finset.range 32, ∑ k : Fin 256, garr V c (ix2 ⟨(256 * r + k.val) % 8192, Nat.mod_lt _ (by decide)⟩ col)) := by
  have hN : cfg0.N = 64 := N_0
  have ht := t.isLt
  have e : t.val = 32 * (t.val / 32) + 31 := by omega
  have h' : 32 * (t.val / 32) + 31 < cfg0.N := by omega
  rw [outs_congr V c t.val (32 * (t.val / 32) + 31) t.isLt h' e, last_sum V c (t.val / 32) h' i, Cert.Spec.Z_eq, zero_add]
  refine congrArg Cert.Spec.dinvOf (Finset.sum_congr rfl fun s hs => ?_)
  exact bsum_eq V c (t.val / 32) s (by omega) (Finset.mem_range.mp hs) i col hcol

def G (c : Dev nD) : S1x8192.Idx → EReal := fun i =>
  Cert.Spec.dinvOf (∑ r ∈ Finset.range 32, ∑ k : Fin 256, garr V c (ix2 ⟨(256 * r + k.val) % 8192, Nat.mod_lt _ (by decide)⟩ (i 1)))

theorem flushed_eq (c : Dev nD) (t : Fin cfg0.N) (hf : (cfg0.win 1).flush t = true) :
    (dat0 V c).flushed 1 t = ((cfg0.win 1).blk t).view.read (Elt Ideal) (G V c) := by
  have h31 : t.val % 32 = 31 := (flush0_1 t).mp hf
  obtain ⟨-, -, e2, e3⟩ := idx_facts t
  show (cfg0.win 1).cut (grid0.coords t) ((dat0 V c).after 1 t) = _
  rw [after0_1]
  funext y
  show outsAt0 V c t.val t.isLt y = G V c (((cfg0.win 1).blk t).view.emb y)
  unfold G
  exact last_apply V c t h31 y _ (by show win0_1.index t (1 : Fin 2) * 4096 + 1 * (y 1).val = _; rw [e3]; omega)

theorem mem_blk (t : Fin cfg0.N) (i : S1x8192.Idx) :
    i ∈ ((cfg0.win 1).blk t).view.set ↔ ∀ a : Fin 2, win0_1.index t a * S1x4096.size a ≤ (i a).val ∧ (i a).val < win0_1.index t a * S1x4096.size a + S1x4096.size a := by
  show i ∈ ((View.whole main_call0_v0).slice (win0_1.rect t)).set ↔ _
  rw [View.set_slice_whole, Rect.mem_set_unit]
  exact Iff.rfl

theorem cover (i : S1x8192.Idx) : ∃ t : Fin cfg0.N, (cfg0.win 1).flush t = true ∧ i ∈ ((cfg0.win 1).blk t).view.set := by
  have hN : cfg0.N = 64 := N_0
  have h0 : (i 0).val < 1 := (i 0).isLt
  have h1 : (i 1).val < 8192 := (i 1).isLt
  obtain ⟨t, htv⟩ : ∃ t : Fin cfg0.N, t.val = 32 * ((i 1).val / 4096) + 31 := ⟨⟨32 * ((i 1).val / 4096) + 31, by omega⟩, rfl⟩
  obtain ⟨-, -, e2, e3⟩ := idx_facts t
  refine ⟨t, (flush0_1 t).mpr (by omega), ?_⟩
  rw [mem_blk]
  intro a
  match a with
  | ⟨0, _⟩ => show win0_1.index t (0 : Fin 2) * 1 ≤ (i 0).val ∧ (i 0).val < win0_1.index t (0 : Fin 2) * 1 + 1; rw [e2]; omega
  | ⟨1, _⟩ => show win0_1.index t (1 : Fin 2) * 4096 ≤ (i 1).val ∧ (i 1).val < win0_1.index t (1 : Fin 2) * 4096 + 4096; rw [e3]; omega

theorem final (c : Dev nD) : (dat0 V c).arrAt 1 cfg0.N = G V c :=
  (dat0 V c).arrAt_eq_of_cover 1 (G V c) (flushed_eq V c) cover

theorem final_apply (c : Dev nD) (j : Fin 8192) :
    (dat0 (F := Ideal) V c).arrAt 1 cfg0.N (ix2 0 j)
      = Cert.Spec.dinvOf (∑ r ∈ Finset.range 32, ∑ i : Fin 256,
          (V c main_arg1 : S8192x8192.Idx → EReal) (ix2 ⟨(256 * r + i.val) % 8192, Nat.mod_lt _ (by decide)⟩ j)) :=
  congrFun (final V c) (ix2 0 j)

end Final

end Cert.KernelIdeal.Val0

end
-- ==== Proof.KernelIdeal.Val1.lean ====
import proofs.«123510_g2000706009674355_pallasbulk_102_2_alg».proof.Proof.KernelIdeal.R1
import Idealize.ShloMosaic.Lib.ValueLayout
import Idealize.ShloMosaic.PureOps.Ideal.Laws

/-! Region 1's result at an index: hs (j, f) = d j · ∑ₘ x (j, m) · w (m, f). -/

noncomputable section

namespace Cert.KernelIdeal.Hand.Val1

open Cert.KernelIdeal Cert.KernelIdeal.Gen Cert.KernelIdeal.Hand Idealize.ShloMosaic Idealize.ShloMosaic.ValueIdx
open scoped BigOperators

theorem lhs_hs_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide),
    dif_pos (show (0 : Fin S512x256.rank) ∈ dot_S512x256_S256x256_S512x256_1_0_0_1_n_n.lhsNonContracting by decide)]
  rfl
theorem lhs_hs_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_hs_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_hs_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide),
    dif_pos (show (1 : Fin S256x256.rank) ∈ dot_S512x256_S256x256_S512x256_1_0_0_1_n_n.rhsNonContracting by decide)]
  rfl

theorem matmul_hs_apply (x0 : FVec Ideal S512x256 .f32) (x1 : FVec Ideal S256x256 .f32) (i : S512x256.Idx) :
    matmul dot_S512x256_S256x256_S512x256_1_0_0_1_n_n none x0 x1 (constant (F := Ideal) S512x256 .f32 0x00000000#32) i
      = ∑ k : Fin 256, x0 (ix2 (i 0) k) * x1 (ix2 k (i 1)) := by
  show FloatOps.matmul dot_S512x256_S256x256_S512x256_1_0_0_1_n_n none x0 x1 (constant (F := Ideal) S512x256 .f32 0x00000000#32) i = _
  rw [Ideal.matmul_constant_zero_apply, ← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx i ((ValueIdx.contrEquiv1 dot_S512x256_S256x256_S512x256_1_0_0_1_n_n 256 rfl rfl).symm k) = ix2 (i 0) k :=
    funext fun a => Fin.ext (by
      match a with
      | ⟨0, _⟩ => exact lhs_hs_0 _ _
      | ⟨1, _⟩ => exact (lhs_hs_1 _ _).trans hk)
  have er : dot_S512x256_S256x256_S512x256_1_0_0_1_n_n.rhsIdx i ((ValueIdx.contrEquiv1 dot_S512x256_S256x256_S512x256_1_0_0_1_n_n 256 rfl rfl).symm k) = ix2 k (i 1) :=
    funext fun a => Fin.ext (by
      match a with
      | ⟨0, _⟩ => exact (rhs_hs_0 _ _).trans hk
      | ⟨1, _⟩ => exact rhs_hs_1 _ _)
  rw [el, er]
  rfl

theorem bcast_col_apply (x2 : Vec Ideal S512x1 .f32) (i : S512x256.Idx) :
    broadcastTo S512x256 x2 broadcasts_S512x1_S512x256 i = x2 (ix2 (i 0) 0) :=
  broadcastTo_apply x2 broadcasts_S512x1_S512x256 i (ix2 (i 0) 0) fun a => by
    match a with
    | ⟨0, _⟩ => rfl
    | ⟨1, _⟩ => rfl

theorem pay_apply (x0 : Vec Ideal S512x256 .f32) (x1 : Vec Ideal S256x256 .f32) (x2 : Vec Ideal S512x1 .f32) (i : S512x256.Idx) :
    k1_pay1 (F := Ideal) x0 x1 x2 i = x2 (ix2 (i 0) 0) * ∑ k : Fin 256, x0 (ix2 (i 0) k) * x1 (ix2 k (i 1)) := by
  unfold k1_pay1
  simp only [shapeCast_self]
  exact congrArg₂ (· * ·) (bcast_col_apply x2 i) (matmul_hs_apply x0 x1 i)

section Blocks

open Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

abbrev xarr (c : Dev nD) : Vec Ideal S8192x256 .f32 := V c main_arg0
abbrev warr (c : Dev nD) : Vec Ideal S256x256 .f32 := V c main_arg2
abbrev darr (c : Dev nD) : Vec Ideal S8192x1 .f32 := V c main_call0_v1

abbrev G (x : Vec Ideal S8192x256 .f32) (w : Vec Ideal S256x256 .f32) (d : Vec Ideal S8192x1 .f32) : Vec Ideal S8192x256 .f32 :=
  fun i => d (ix2 (i 0) 0) * ∑ m : Fin 256, x (ix2 (i 0) m) * w (ix2 m (i 1))

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem iblk_x_apply (c : Dev nD) (t : Fin cfg1.N) (y : S512x256.Idx) (k : S8192x256.Idx)
    (hk0 : (k 0).val = t.val * 512 + (y 0).val) (hk1 : (k 1).val = (y 1).val) :
    (iblk1 V c 0 t : Vec Ideal S512x256 .f32) y = xarr V c k := by
  obtain ⟨e0, e1, -⟩ := idx_facts t
  unfold iblk1
  rw [View.read_apply]
  show V c main_arg0 _ = V c main_arg0 _
  congr 1
  funext a
  apply Fin.ext
  match a with
  | ⟨0, _⟩ => show win1_0.index t (0 : Fin 2) * 512 + 1 * (y 0).val = (k 0).val; rw [e0, hk0]; omega
  | ⟨1, _⟩ => show win1_0.index t (1 : Fin 2) * 256 + 1 * (y 1).val = (k 1).val; rw [e1, hk1]; omega

theorem iblk_w_apply (c : Dev nD) (t : Fin cfg1.N) (y : S256x256.Idx) :
    (iblk1 V c 1 t : Vec Ideal S256x256 .f32) y = warr V c y := by
  obtain ⟨-, -, e2, e3, -⟩ := idx_facts t
  unfold iblk1
  rw [View.read_apply]
  show V c main_arg2 _ = V c main_arg2 _
  congr 1
  funext a
  apply Fin.ext
  match a with
  | ⟨0, _⟩ => show win1_1.index t (0 : Fin 2) * 256 + 1 * (y 0).val = (y 0).val; rw [e2]; omega
  | ⟨1, _⟩ => show win1_1.index t (1 : Fin 2) * 256 + 1 * (y 1).val = (y 1).val; rw [e3]; omega

theorem iblk_d_apply (c : Dev nD) (t : Fin cfg1.N) (y : S512x1.Idx) (k : S8192x1.Idx)
    (hk0 : (k 0).val = t.val * 512 + (y 0).val) (hk1 : (k 1).val = (y 1).val) :
    (iblk1 V c 2 t : Vec Ideal S512x1 .f32) y = darr V c k := by
  obtain ⟨-, -, -, -, e4, e5, -⟩ := idx_facts t
  unfold iblk1
  rw [View.read_apply]
  show V c main_call0_v1 _ = V c main_call0_v1 _
  congr 1
  funext a
  apply Fin.ext
  match a with
  | ⟨0, _⟩ => show win1_2.index t (0 : Fin 2) * 512 + 1 * (y 0).val = (k 0).val; rw [e4, hk0]; omega
  | ⟨1, _⟩ => show win1_2.index t (1 : Fin 2) * 1 + 1 * (y 1).val = (k 1).val; rw [e5, hk1]; omega

theorem pay_blocks (c : Dev nD) (t : Fin cfg1.N) (y : S512x256.Idx) (i : S8192x256.Idx)
    (h0 : (i 0).val = t.val * 512 + (y 0).val) (h1 : (i 1).val = (y 1).val) :
    k1_pay1 (F := Ideal) (iblk1 V c 0 t) (iblk1 V c 1 t) (iblk1 V c 2 t) y = G (xarr V c) (warr V c) (darr V c) i := by
  refine (pay_apply (iblk1 V c 0 t) (iblk1 V c 1 t) (iblk1 V c 2 t) y).trans ?_
  show _ = darr V c (ix2 (i 0) 0) * ∑ m : Fin 256, xarr V c (ix2 (i 0) m) * warr V c (ix2 m (i 1))
  refine congrArg₂ (· * ·) ?_ (Finset.sum_congr rfl fun m _ => congrArg₂ (· * ·) ?_ ?_)
  · exact iblk_d_apply V c t (ix2 (y 0) 0) (ix2 (i 0) 0) h0 rfl
  · exact iblk_x_apply V c t (ix2 (y 0) m) (ix2 (i 0) m) h0 rfl
  · exact (iblk_w_apply V c t (ix2 m (y 1))).trans (congrArg (fun q => warr V c (ix2 m q)) (Fin.ext h1.symm))

theorem flushed_eq (c : Dev nD) (t : Fin cfg1.N) :
    (dat1 V c).flushed 3 t = ((cfg1.win 3).blk t).view.read (Elt Ideal) (G (xarr V c) (warr V c) (darr V c)) := by
  show (cfg1.win 3).cut (grid1.coords t) ((dat1 V c).after 3 t) = _
  rw [after1_3]
  unfold out1_3
  rw [View.canon_unit_zero hz]
  simp only [View.ld_unit_zero (S := S512x256) hz, View.ld_unit_zero (S := S256x256) hz, View.ld_unit_zero (S := S512x1) hz]
  obtain ⟨-, -, -, -, -, -, e6, e7⟩ := idx_facts t
  funext y
  have hy0 : (y 0).val < 512 := (y 0).isLt
  have hy1 : (y 1).val < 256 := (y 1).isLt
  refine pay_blocks V c t y (((cfg1.win 3).blk t).view.emb y) ?_ ?_
  · show win1_3.index t (0 : Fin 2) * 512 + 1 * (y 0).val = _; rw [e6]; omega
  · show win1_3.index t (1 : Fin 2) * 256 + 1 * (y 1).val = _; rw [e7]; omega

theorem mem_blk (t : Fin cfg1.N) (i : S8192x256.Idx) :
    i ∈ ((cfg1.win 3).blk t).view.set ↔ ∀ a : Fin 2, win1_3.index t a * S512x256.size a ≤ (i a).val ∧ (i a).val < win1_3.index t a * S512x256.size a + S512x256.size a := by
  show i ∈ ((View.whole main_call0_v2).slice (win1_3.rect t)).set ↔ _
  rw [View.set_slice_whole, Rect.mem_set_unit]
  exact Iff.rfl

theorem covered (i : S8192x256.Idx) : ∃ t : Fin cfg1.N, (cfg1.win 3).flush t = true ∧ i ∈ ((cfg1.win 3).blk t).view.set := by
  have hi0 : (i 0).val < 8192 := (i 0).isLt
  have hi1 : (i 1).val < 256 := (i 1).isLt
  have hN : cfg1.N = 16 := N_1
  refine ⟨⟨(i 0).val / 512, by rw [hN]; omega⟩, flush1_3 _, ?_⟩
  rw [mem_blk]
  obtain ⟨-, -, -, -, -, -, e6, e7⟩ := idx_facts ⟨(i 0).val / 512, by rw [hN]; omega⟩
  intro a
  match a with
  | ⟨0, _⟩ =>
    show win1_3.index ⟨(i 0).val / 512, _⟩ (0 : Fin 2) * 512 ≤ (i 0).val ∧ (i 0).val < win1_3.index ⟨(i 0).val / 512, _⟩ (0 : Fin 2) * 512 + 512
    rw [e6]; show (i 0).val / 512 * 512 ≤ (i 0).val ∧ (i 0).val < (i 0).val / 512 * 512 + 512; omega
  | ⟨1, _⟩ =>
    show win1_3.index ⟨(i 0).val / 512, _⟩ (1 : Fin 2) * 256 ≤ (i 1).val ∧ (i 1).val < win1_3.index ⟨(i 0).val / 512, _⟩ (1 : Fin 2) * 256 + 256
    rw [e7]; omega

theorem final (c : Dev nD) : (dat1 V c).arrAt 3 cfg1.N = G (xarr V c) (warr V c) (darr V c) :=
  (dat1 V c).arrAt_eq_of_cover 3 (G (xarr V c) (warr V c) (darr V c)) (fun t _ => flushed_eq V c t) covered

theorem final_apply (c : Dev nD) (j : Fin 8192) (f : Fin 256) :
    ((dat1 V c).arrAt 3 cfg1.N : Vec Ideal S8192x256 .f32) (ix2 j f)
      = darr V c (ix2 j 0) * ∑ m : Fin 256, xarr V c (ix2 j m) * warr V c (ix2 m f) := by
  rw [final]

end Blocks

end Cert.KernelIdeal.Hand.Val1

end
-- ==== Proof.KernelIdeal.Val2.lean ====
import proofs.«123510_g2000706009674355_pallasbulk_102_2_alg».proof.Proof.KernelIdeal.R2
import Idealize.ShloMosaic.Lib.ValueLayout
import Idealize.ShloMosaic.PureOps.Ideal.Laws

/-! Region 2's result at an index: y (i, f) = d i · ∑ₖ ∑ⱼ g (512 k + j, i) · hs (512 k + j, f) + b f, by induction over the 16 steps of a row of blocks. -/

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

theorem hz2 : (![0, 0] : Fin 2 → Nat) = fun _ => 0 := funext fun a => by
  match a with
  | ⟨0, _⟩ => rfl
  | ⟨1, _⟩ => rfl

section Pieces

variable (c : Dev nD) (i : grid2.Coords)
  {arg2 : Memref sig .tc .vmem S512x512 .f32} (harg2 : arg2.IsWhole) {arg3 : Memref sig .tc .vmem S8192x256 .f32} (harg3 : arg3.IsWhole)
  {arg4 : Memref sig .tc .vmem S512x1 .f32} (harg4 : arg4.IsWhole) {arg5 : Memref sig .tc .vmem S1x256 .f32} (harg5 : arg5.IsWhole)
  {arg6 : Memref sig .tc .vmem S512x256 .f32} (harg6 : arg6.IsWhole)
  (x0 : Vec F S512x512 .f32) (x1 : Vec F S8192x256 .f32) (x2 : Vec F S512x1 .f32) (x3 : Vec F S1x256 .f32) (xo4 : Vec F S512x256 .f32)

theorem out2_A_eq (hc0 : cond2_0 i) (hc1 : ¬cond2_1 i) (hc2 : ¬cond2_2 i) :
    outOf2 (kernelRun2_A c i harg2 harg3 harg4 harg5 harg6 x0 x1 x2 x3 hc0 hc1 hc2).1 = k2_pay1 (View.ld x1 (Rect.unit (s := S8192x256) (k2_off1 i) S512x256.size (k2_off1_inb i))) x0 := by
  unfold outOf2
  rw [View.read_writes_junk_eq_canon]
  unfold kernelRun2_A
  dsimp only
  sl_unfold_words
  rw [View.canon_unit_zero hz2]
  simp only [View.readAt_eq_ld, harg2.read_unread, harg3.read_unread, View.ld_unit_zero (S := S512x512) hz2]

theorem out2_B_eq (hc0 : ¬cond2_0 i) (hc1 : cond2_1 i) (hc2 : ¬cond2_2 i) :
    outOf2 (kernelRun2_B c i harg2 harg3 harg4 harg5 harg6 x0 x1 x2 x3 xo4 hc0 hc1 hc2).1 = k2_pay2 (View.ld x1 (Rect.unit (s := S8192x256) (k2_off1 i) S512x256.size (k2_off1_inb i))) x0 xo4 := by
  unfold outOf2
  rw [View.read_writes_junk_eq_canon]
  unfold kernelRun2_B
  dsimp only
  sl_unfold_words
  rw [View.canon_unit_zero hz2]
  simp only [View.readAt_eq_ld, harg2.read_unread, harg3.read_unread, harg6.read_unread, View.ld_unit_zero (S := S512x512) hz2, View.ld_unit_zero (S := S512x256) hz2]

theorem out2_C_eq (hc0 : ¬cond2_0 i) (hc1 : cond2_1 i) (hc2 : cond2_2 i) :
    outOf2 (kernelRun2_C c i harg2 harg3 harg4 harg5 harg6 x0 x1 x2 x3 xo4 hc0 hc1 hc2).1 = k2_pay3 x2 (k2_pay2 (View.ld x1 (Rect.unit (s := S8192x256) (k2_off1 i) S512x256.size (k2_off1_inb i))) x0 xo4) x3 := by
  unfold outOf2
  rw [View.read_writes_junk_eq_canon]
  unfold kernelRun2_C
  dsimp only
  sl_unfold_words
  rw [View.canon_cons_unit_zero (S := S512x256) hz2]
  simp only [View.readAt_eq_ld, harg2.read_unread, harg3.read_unread, harg4.read_unread, harg5.read_unread, harg6.read_unread, View.readCov_unit_zero (S := S512x256) _ hz2, View.ld_unit_zero (S := S512x512) hz2, View.ld_unit_zero (S := S512x256) hz2, View.ld_unit_zero (S := S512x1) hz2, View.ld_unit_zero (S := S1x256) hz2]

end Pieces

theorem lhs_pay1_0 (i : S512x256.Idx) (q : dot_S512x512_S512x256_S512x256_0_0_1_1_n_n.contr.Idx) :
    (dot_S512x512_S512x256_S512x256_0_0_1_1_n_n.lhsIdx i q 0).val = (q ⟨0, by decide⟩).val :=
  dot_S512x512_S512x256_S512x256_0_0_1_1_n_n.lhsIdx_val_of_single rfl i q
theorem lhs_pay1_1 (i : S512x256.Idx) (q : dot_S512x512_S512x256_S512x256_0_0_1_1_n_n.contr.Idx) :
    (dot_S512x512_S512x256_S512x256_0_0_1_1_n_n.lhsIdx i q 1).val = (i 0).val := by
  unfold DotDims.lhsIdx
  rw [dif_neg (show ¬(1 : Fin S512x512.rank) ∈ dot_S512x512_S512x256_S512x256_0_0_1_1_n_n.lhsBatch by decide), dif_pos (show (1 : Fin S512x512.rank) ∈ dot_S512x512_S512x256_S512x256_0_0_1_1_n_n.lhsNonContracting by decide)]
  rfl
theorem rhs_pay1_0 (i : S512x256.Idx) (q : dot_S512x512_S512x256_S512x256_0_0_1_1_n_n.contr.Idx) :
    (dot_S512x512_S512x256_S512x256_0_0_1_1_n_n.rhsIdx i q 0).val = (q ⟨0, by decide⟩).val :=
  dot_S512x512_S512x256_S512x256_0_0_1_1_n_n.rhsIdx_val_of_single rfl i q
theorem rhs_pay1_1 (i : S512x256.Idx) (q : dot_S512x512_S512x256_S512x256_0_0_1_1_n_n.contr.Idx) :
    (dot_S512x512_S512x256_S512x256_0_0_1_1_n_n.rhsIdx i q 1).val = (i 1).val := by
  unfold DotDims.rhsIdx
  rw [dif_neg (show ¬(1 : Fin S512x256.rank) ∈ dot_S512x512_S512x256_S512x256_0_0_1_1_n_n.rhsBatch by decide), dif_pos (show (1 : Fin S512x256.rank) ∈ dot_S512x512_S512x256_S512x256_0_0_1_1_n_n.rhsNonContracting by decide)]
  rfl

theorem pay1_apply (v2 : Vec Ideal S512x256 .f32) (v4 : Vec Ideal S512x512 .f32) (r : Fin 512) (f : Fin 256) :
    k2_pay1 (F := Ideal) v2 v4 (ix2 r f) = ∑ j : Fin 512, v4 (ix2 j r) * v2 (ix2 j f) := by
  unfold k2_pay1
  refine (Ideal.matmul_constant_zero_apply dot_S512x512_S512x256_S512x256_0_0_1_1_n_n none v4 (shapeCast S512x256 v2 shapeCasts_S512x256_S512x256) (ix2 r f)).trans ?_
  rw [← Equiv.sum_comp (contrEquiv1 dot_S512x512_S512x256_S512x256_0_0_1_1_n_n 512 rfl rfl).symm]
  refine Finset.sum_congr rfl fun k _ => ?_
  have hk := contrEquiv1_symm_val dot_S512x512_S512x256_S512x256_0_0_1_1_n_n 512 rfl rfl k
  have el : dot_S512x512_S512x256_S512x256_0_0_1_1_n_n.lhsIdx (ix2 r f) ((contrEquiv1 dot_S512x512_S512x256_S512x256_0_0_1_1_n_n 512 rfl rfl).symm k) = ix2 k r := funext fun a => Fin.ext (by
    match a with
    | ⟨0, _⟩ => exact (lhs_pay1_0 _ _).trans hk
    | ⟨1, _⟩ => exact lhs_pay1_1 _ _)
  have er : dot_S512x512_S512x256_S512x256_0_0_1_1_n_n.rhsIdx (ix2 r f) ((contrEquiv1 dot_S512x512_S512x256_S512x256_0_0_1_1_n_n 512 rfl rfl).symm k) = ix2 k f := funext fun a => Fin.ext (by
    match a with
    | ⟨0, _⟩ => exact (rhs_pay1_0 _ _).trans hk
    | ⟨1, _⟩ => exact rhs_pay1_1 _ _)
  rw [el, er, shapeCast_self]

theorem pay2_apply (v2 : Vec Ideal S512x256 .f32) (v4 : Vec Ideal S512x512 .f32) (v15 : Vec Ideal S512x256 .f32) (r : Fin 512) (f : Fin 256) :
    k2_pay2 (F := Ideal) v2 v4 v15 (ix2 r f) = v15 (ix2 r f) + ∑ j : Fin 512, v4 (ix2 j r) * v2 (ix2 j f) := by
  unfold k2_pay2
  refine (addf_apply _ _ _).trans ?_
  rw [pay1_apply, shapeCast_self]

theorem broadcastTo_col_apply (v : S512x1.Idx → EReal) (r : Fin 512) (f : Fin 256) :
    broadcastTo S512x256 v broadcasts_S512x1_S512x256 (ix2 r f) = v (ix2 r (0 : Fin 1)) := by
  refine broadcastTo_apply v broadcasts_S512x1_S512x256 (ix2 r f) (ix2 r (0 : Fin 1)) fun ax => ?_
  match ax with
  | ⟨0, _⟩ => rfl
  | ⟨1, _⟩ => rfl

theorem pay3_apply (v15 : Vec Ideal S512x1 .f32) (v17 : Vec Ideal S512x256 .f32) (v21 : Vec Ideal S1x256 .f32) (r : Fin 512) (f : Fin 256) :
    k2_pay3 (F := Ideal) v15 v17 v21 (ix2 r f) = v15 (ix2 r (0 : Fin 1)) * v17 (ix2 r f) + v21 (ix2 (0 : Fin 1) f) := by
  unfold k2_pay3
  refine (addf_apply _ _ _).trans ?_
  refine congrArg₂ (· + ·) ((mulf_apply _ _ _).trans ?_) ?_
  · rw [shapeCast_self, shapeCast_self]
    exact congrArg (· * v17 (ix2 r f)) (broadcastTo_col_apply v15 r f)
  · rw [shapeCast_self]
    exact broadcastTo_1b_ab_apply v21 broadcasts_S1x256_S512x256 r f

variable (V : (c : Dev nD) → (b : Ref sig .tc) → Buf (Elt Ideal) ((c : Thread nD τ).loc b))

abbrev garr (c : Dev nD) : FVec Ideal S8192x8192 .f32 := V c main_arg1
abbrev harr (c : Dev nD) : FVec Ideal S8192x256 .f32 := V c main_call0_v2
abbrev darr (c : Dev nD) : FVec Ideal S8192x1 .f32 := V c main_call0_v1
abbrev barr (c : Dev nD) : FVec Ideal S1x256 .f32 := V c main_v0

abbrev rowIx (k : ℕ) (j : Fin 512) : Fin 8192 := ⟨(512 * k + j.val) % 8192, Nat.mod_lt _ (by decide)⟩

abbrev gblk (c : Dev nD) (t : Fin cfg2.N) : Vec Ideal S512x512 .f32 := iblk2 V c 0 t
abbrev hwin (c : Dev nD) (t : Fin cfg2.N) : Vec Ideal S8192x256 .f32 := iblk2 V c 1 t
abbrev hblk (c : Dev nD) (t : Fin cfg2.N) : Vec Ideal S512x256 .f32 :=
  View.ld (hwin V c t) (Rect.unit (s := S8192x256) (k2_off1 (grid2.coords t)) S512x256.size (k2_off1_inb (grid2.coords t)))
abbrev dblk (c : Dev nD) (t : Fin cfg2.N) : Vec Ideal S512x1 .f32 := iblk2 V c 2 t
abbrev bblk (c : Dev nD) (t : Fin cfg2.N) : Vec Ideal S1x256 .f32 := iblk2 V c 3 t

theorem idx_facts2 : ∀ t : Fin cfg2.N,
    win2_0.index t (0 : Fin 2) = t.val % 16 ∧ win2_0.index t (1 : Fin 2) = t.val / 16
    ∧ win2_1.index t (0 : Fin 2) = 0 ∧ win2_1.index t (1 : Fin 2) = 0
    ∧ win2_2.index t (0 : Fin 2) = t.val / 16 ∧ win2_2.index t (1 : Fin 2) = 0
    ∧ win2_3.index t (0 : Fin 2) = 0 ∧ win2_3.index t (1 : Fin 2) = 0
    ∧ win2_4.index t (0 : Fin 2) = t.val / 16 ∧ win2_4.index t (1 : Fin 2) = 0
    ∧ k2_off1 (grid2.coords t) (0 : Fin 2) = 512 * (t.val % 16) ∧ k2_off1 (grid2.coords t) (1 : Fin 2) = 0 :=
  (by decide +kernel : ∀ t : Fin grid2.N, _)

theorem gblk_apply (c : Dev nD) (t : Fin cfg2.N) (j r : Fin 512) :
    gblk V c t (ix2 j r) = garr V c (ix2 (rowIx (t.val % 16) j) (rowIx (t.val / 16) r)) := by
  obtain ⟨e0, e1, -⟩ := idx_facts2 t
  have hj := j.isLt; have hr := r.isLt; have ht : t.val < 256 := lt_of_lt_of_eq t.isLt N_2
  show V c main_arg1 (((cfg2.win 0).blk t).view.emb (ix2 j r)) = V c main_arg1 _
  refine congrArg (V c main_arg1) (funext fun a => Fin.ext ?_)
  match a with
  | ⟨0, _⟩ => show win2_0.index t (0 : Fin 2) * 512 + 1 * j.val = (512 * (t.val % 16) + j.val) % 8192; rw [e0]; omega
  | ⟨1, _⟩ => show win2_0.index t (1 : Fin 2) * 512 + 1 * r.val = (512 * (t.val / 16) + r.val) % 8192; rw [e1]; omega

theorem hblk_apply (c : Dev nD) (t : Fin cfg2.N) (j : Fin 512) (f : Fin 256) :
    hblk V c t (ix2 j f) = harr V c (ix2 (rowIx (t.val % 16) j) f) := by
  obtain ⟨-, -, e2, e3, -, -, -, -, -, -, e10, e11⟩ := idx_facts2 t
  have hj := j.isLt; have hf := f.isLt; have ht : t.val < 256 := lt_of_lt_of_eq t.isLt N_2
  show V c main_call0_v2 (((cfg2.win 1).blk t).view.emb
    ((Rect.unit (s := S8192x256) (k2_off1 (grid2.coords t)) S512x256.size (k2_off1_inb (grid2.coords t))).idx (ix2 j f))) = V c main_call0_v2 _
  refine congrArg (V c main_call0_v2) (funext fun a => Fin.ext ?_)
  match a with
  | ⟨0, _⟩ => show win2_1.index t (0 : Fin 2) * 8192 + 1 * (k2_off1 (grid2.coords t) (0 : Fin 2) + 1 * j.val) = (512 * (t.val % 16) + j.val) % 8192; rw [e2, e10]; omega
  | ⟨1, _⟩ => show win2_1.index t (1 : Fin 2) * 256 + 1 * (k2_off1 (grid2.coords t) (1 : Fin 2) + 1 * f.val) = f.val; rw [e3, e11]; omega

theorem dblk_apply (c : Dev nD) (t : Fin cfg2.N) (r : Fin 512) :
    dblk V c t (ix2 r (0 : Fin 1)) = darr V c (ix2 (rowIx (t.val / 16) r) (0 : Fin 1)) := by
  obtain ⟨-, -, -, -, e4, e5, -⟩ := idx_facts2 t
  have hr := r.isLt; have ht : t.val < 256 := lt_of_lt_of_eq t.isLt N_2
  show V c main_call0_v1 (((cfg2.win 2).blk t).view.emb (ix2 r (0 : Fin 1))) = V c main_call0_v1 _
  refine congrArg (V c main_call0_v1) (funext fun a => Fin.ext ?_)
  match a with
  | ⟨0, _⟩ => show win2_2.index t (0 : Fin 2) * 512 + 1 * r.val = (512 * (t.val / 16) + r.val) % 8192; rw [e4]; omega
  | ⟨1, _⟩ => show win2_2.index t (1 : Fin 2) * 1 + 1 * 0 = 0; rw [e5]

theorem bblk_apply (c : Dev nD) (t : Fin cfg2.N) (f : Fin 256) :
    bblk V c t (ix2 (0 : Fin 1) f) = barr V c (ix2 (0 : Fin 1) f) := by
  obtain ⟨-, -, -, -, -, -, e6, e7, -⟩ := idx_facts2 t
  have hf := f.isLt
  show V c main_v0 (((cfg2.win 3).blk t).view.emb (ix2 (0 : Fin 1) f)) = V c main_v0 _
  refine congrArg (V c main_v0) (funext fun a => Fin.ext ?_)
  match a with
  | ⟨0, _⟩ => show win2_3.index t (0 : Fin 2) * 1 + 1 * 0 = 0; rw [e6]
  | ⟨1, _⟩ => show win2_3.index t (1 : Fin 2) * 256 + 1 * f.val = f.val; rw [e7]; omega

def term2 (c : Dev nD) (b k : ℕ) (r : Fin 512) (f : Fin 256) : EReal :=
  ∑ j : Fin 512, garr V c (ix2 (rowIx k j) (rowIx b r)) * harr V c (ix2 (rowIx k j) f)

def psum (c : Dev nD) (b m : ℕ) (r : Fin 512) (f : Fin 256) : EReal := ∑ k ∈ Finset.range m, term2 V c b k r f

theorem psum_succ (c : Dev nD) (b m : ℕ) (r : Fin 512) (f : Fin 256) :
    psum V c b (m + 1) r f = psum V c b m r f + term2 V c b m r f := Finset.sum_range_succ _ _

theorem psum_one (c : Dev nD) (b : ℕ) (r : Fin 512) (f : Fin 256) : psum V c b (0 + 1) r f = term2 V c b 0 r f := by
  rw [psum_succ]; unfold psum; rw [Finset.range_zero, Finset.sum_empty, zero_add]

theorem stepA (c : Dev nD) (t : Fin cfg2.N) (h0 : t.val % 16 = 0) (r : Fin 512) (f : Fin 256) :
    outOf2 (runA2 V c t h0).1 (ix2 r f) = term2 V c (t.val / 16) (t.val % 16) r f := by
  refine (congrFun (out2_A_eq (F := Ideal) c (grid2.coords t) (hs2_0 t) (hs2_1 t) (hs2_2 t) (hs2_3 t) (hs2_4 t) (gblk V c t) (hwin V c t) (dblk V c t) (bblk V c t) _ _ _) (ix2 r f)).trans ?_
  refine (pay1_apply (hblk V c t) (gblk V c t) r f).trans ?_
  exact (Finset.sum_congr rfl fun j _ => congrArg₂ (· * ·) (gblk_apply V c t j r) (hblk_apply V c t j f))

theorem stepB (c : Dev nD) (t : Fin cfg2.N) (h0 : ¬t.val % 16 = 0) (h2 : ¬t.val % 16 = 15) (xo : Vec Ideal S512x256 .f32) (r : Fin 512) (f : Fin 256) :
    outOf2 (runB2 V c t h0 h2 xo).1 (ix2 r f) = xo (ix2 r f) + term2 V c (t.val / 16) (t.val % 16) r f := by
  refine (congrFun (out2_B_eq (F := Ideal) c (grid2.coords t) (hs2_0 t) (hs2_1 t) (hs2_2 t) (hs2_3 t) (hs2_4 t) (gblk V c t) (hwin V c t) (dblk V c t) (bblk V c t) xo _ _ _) (ix2 r f)).trans ?_
  refine (pay2_apply (hblk V c t) (gblk V c t) xo r f).trans ?_
  exact congrArg (xo (ix2 r f) + ·) (Finset.sum_congr rfl fun j _ => congrArg₂ (· * ·) (gblk_apply V c t j r) (hblk_apply V c t j f))

theorem stepC (c : Dev nD) (t : Fin cfg2.N) (h2 : t.val % 16 = 15) (xo : Vec Ideal S512x256 .f32) (r : Fin 512) (f : Fin 256) :
    outOf2 (runC2 V c t h2 xo).1 (ix2 r f)
      = darr V c (ix2 (rowIx (t.val / 16) r) (0 : Fin 1)) * (xo (ix2 r f) + term2 V c (t.val / 16) (t.val % 16) r f) + barr V c (ix2 (0 : Fin 1) f) := by
  refine (congrFun (out2_C_eq (F := Ideal) c (grid2.coords t) (hs2_0 t) (hs2_1 t) (hs2_2 t) (hs2_3 t) (hs2_4 t) (gblk V c t) (hwin V c t) (dblk V c t) (bblk V c t) xo _ _ _) (ix2 r f)).trans ?_
  refine (pay3_apply (dblk V c t) (k2_pay2 (hblk V c t) (gblk V c t) xo) (bblk V c t) r f).trans ?_
  exact congrArg₂ (· + ·) (congrArg₂ (· * ·) (dblk_apply V c t r)
    ((pay2_apply (hblk V c t) (gblk V c t) xo r f).trans (congrArg (xo (ix2 r f) + ·) (Finset.sum_congr rfl fun j _ => congrArg₂ (· * ·) (gblk_apply V c t j r) (hblk_apply V c t j f))))) (bblk_apply V c t f)

theorem inv2 (c : Dev nD) : ∀ (n : ℕ) (hn : n < cfg2.N),
    (n % 16 ≠ 15 → ∀ (r : Fin 512) (f : Fin 256), outsAt2 V c n hn (ix2 r f) = psum V c (n / 16) (n % 16 + 1) r f)
    ∧ (n % 16 = 15 → ∀ (r : Fin 512) (f : Fin 256), outsAt2 V c n hn (ix2 r f)
        = darr V c (ix2 (rowIx (n / 16) r) (0 : Fin 1)) * psum V c (n / 16) 16 r f + barr V c (ix2 (0 : Fin 1) f))
  | 0, hn => ⟨fun _ r f => by
      rw [outsAt2_A V c ⟨0, hn⟩ rfl]
      refine (stepA V c ⟨0, hn⟩ rfl r f).trans ?_
      show term2 V c (0 / 16) (0 % 16) r f = psum V c (0 / 16) (0 % 16 + 1) r f
      rw [Nat.zero_div, Nat.zero_mod]
      exact (psum_one V c 0 r f).symm, fun h => absurd h (by decide)⟩
  | n + 1, hn => by
    have ih := inv2 c n (Nat.lt_of_succ_lt hn)
    by_cases h0 : (n + 1) % 16 = 0
    · refine ⟨fun _ r f => ?_, fun h => by omega⟩
      rw [outsAt2_A V c ⟨n + 1, hn⟩ h0]
      refine (stepA V c ⟨n + 1, hn⟩ h0 r f).trans ?_
      show term2 V c ((n + 1) / 16) ((n + 1) % 16) r f = psum V c ((n + 1) / 16) ((n + 1) % 16 + 1) r f
      rw [h0]
      exact (psum_one V c _ r f).symm
    · have hd : (n + 1) / 16 = n / 16 := by omega
      have hm : (n + 1) % 16 = n % 16 + 1 := by omega
      have hne : n % 16 ≠ 15 := by omega
      by_cases h2 : (n + 1) % 16 = 15
      · refine ⟨fun h => absurd h2 h, fun _ r f => ?_⟩
        rw [outsAt2_C V c ⟨n + 1, hn⟩ h2]
        refine (stepC V c ⟨n + 1, hn⟩ h2 (outsAt2 V c n (Nat.lt_of_succ_lt hn)) r f).trans ?_
        show darr V c (ix2 (rowIx ((n + 1) / 16) r) (0 : Fin 1)) * (outsAt2 V c n (Nat.lt_of_succ_lt hn) (ix2 r f) + term2 V c ((n + 1) / 16) ((n + 1) % 16) r f) + barr V c (ix2 (0 : Fin 1) f)
          = darr V c (ix2 (rowIx ((n + 1) / 16) r) (0 : Fin 1)) * psum V c ((n + 1) / 16) 16 r f + barr V c (ix2 (0 : Fin 1) f)
        have hm' : n % 16 + 1 = 15 := by omega
        rw [ih.1 hne r f, ← hd, hm', h2]
        exact congrArg (fun z => darr V c (ix2 (rowIx ((n + 1) / 16) r) (0 : Fin 1)) * z + barr V c (ix2 (0 : Fin 1) f)) (psum_succ V c ((n + 1) / 16) 15 r f).symm
      · refine ⟨fun _ r f => ?_, fun h => absurd h h2⟩
        rw [outsAt2_B V c ⟨n + 1, hn⟩ h0 h2]
        refine (stepB V c ⟨n + 1, hn⟩ h0 h2 (outsAt2 V c n (Nat.lt_of_succ_lt hn)) r f).trans ?_
        show outsAt2 V c n (Nat.lt_of_succ_lt hn) (ix2 r f) + term2 V c ((n + 1) / 16) ((n + 1) % 16) r f = psum V c ((n + 1) / 16) ((n + 1) % 16 + 1) r f
        rw [ih.1 hne r f, hd, hm]
        exact (psum_succ V c (n / 16) (n % 16 + 1) r f).symm

def G2 (c : Dev nD) : FVec Ideal S8192x256 .f32 := fun y =>
  darr V c (ix2 (y 0) (0 : Fin 1)) * (∑ k ∈ Finset.range 16, ∑ j : Fin 512, garr V c (ix2 (rowIx k j) (y 0)) * harr V c (ix2 (rowIx k j) (y 1)))
    + barr V c (ix2 (0 : Fin 1) (y 1))

theorem flushed2_4_eq (c : Dev nD) (t : Fin cfg2.N) (hf : (cfg2.win 4).flush t = true) :
    (dat2 V c).flushed 4 t = ((cfg2.win 4).blk t).view.read (Elt Ideal) (G2 V c) := by
  have h15 : t.val % 16 = 15 := (flush2_4 t).mp hf
  have ht : t.val < 256 := lt_of_lt_of_eq t.isLt N_2
  obtain ⟨-, -, -, -, -, -, -, -, e8, e9, -⟩ := idx_facts2 t
  show (cfg2.win 4).cut (grid2.coords t) ((dat2 V c).after 4 t) = _
  rw [after2_4]
  funext y
  obtain ⟨r, f, rfl⟩ : ∃ (r : Fin 512) (f : Fin 256), y = ix2 r f := ⟨y 0, y 1, eq_ix2 y⟩
  have hr := r.isLt; have hf' := f.isLt
  show outsAt2 V c t.val t.isLt (ix2 r f) = G2 V c (((cfg2.win 4).blk t).view.emb (ix2 r f))
  refine ((inv2 V c t.val t.isLt).2 h15 r f).trans ?_
  have ey : ((cfg2.win 4).blk t).view.emb (ix2 r f) = ix2 (rowIx (t.val / 16) r) f := funext fun a => Fin.ext (by
    match a with
    | ⟨0, _⟩ => show win2_4.index t (0 : Fin 2) * 512 + 1 * r.val = (512 * (t.val / 16) + r.val) % 8192; rw [e8]; omega
    | ⟨1, _⟩ => show win2_4.index t (1 : Fin 2) * 256 + 1 * f.val = f.val; rw [e9]; omega)
  rw [ey]
  rfl

theorem mem_blk2_4 (t : Fin cfg2.N) (i : S8192x256.Idx) :
    i ∈ ((cfg2.win 4).blk t).view.set ↔ ∀ a : Fin 2, win2_4.index t a * S512x256.size a ≤ (i a).val ∧ (i a).val < win2_4.index t a * S512x256.size a + S512x256.size a := by
  show i ∈ ((View.whole main_v1).slice (win2_4.rect t)).set ↔ _
  rw [View.set_slice_whole, Rect.mem_set_unit]
  exact Iff.rfl

theorem final2_4 (c : Dev nD) : (dat2 V c).arrAt 4 cfg2.N = G2 V c :=
  (dat2 V c).arrAt_eq_of_cover 4 (G2 V c) (flushed2_4_eq V c) fun i => by
    have hi0 : (i 0).val < 8192 := (i 0).isLt
    have hi1 : (i 1).val < 256 := (i 1).isLt
    have hN : cfg2.N = 256 := N_2
    have hlt : 16 * ((i 0).val / 512) + 15 < cfg2.N := by rw [hN]; omega
    obtain ⟨-, -, -, -, -, -, -, -, e8, e9, -⟩ := idx_facts2 ⟨16 * ((i 0).val / 512) + 15, hlt⟩
    refine ⟨⟨16 * ((i 0).val / 512) + 15, hlt⟩, (flush2_4 _).mpr (by show (16 * ((i 0).val / 512) + 15) % 16 = 15; omega), ?_⟩
    rw [mem_blk2_4]
    intro a
    match a with
    | ⟨0, _⟩ =>
      show win2_4.index ⟨16 * ((i 0).val / 512) + 15, hlt⟩ (0 : Fin 2) * 512 ≤ (i 0).val ∧ (i 0).val < win2_4.index ⟨16 * ((i 0).val / 512) + 15, hlt⟩ (0 : Fin 2) * 512 + 512
      rw [e8]; dsimp only; omega
    | ⟨1, _⟩ =>
      show win2_4.index ⟨16 * ((i 0).val / 512) + 15, hlt⟩ (1 : Fin 2) * 256 ≤ (i 1).val ∧ (i 1).val < win2_4.index ⟨16 * ((i 0).val / 512) + 15, hlt⟩ (1 : Fin 2) * 256 + 256
      rw [e9]; omega

theorem val2_apply (c : Dev nD) (i : Fin 8192) (f : Fin 256) :
    (dat2 (F := Ideal) V c).arrAt 4 cfg2.N (ix2 i f)
      = darr V c (ix2 i (0 : Fin 1)) * (∑ k ∈ Finset.range 16, ∑ j : Fin 512, garr V c (ix2 (rowIx k j) i) * harr V c (ix2 (rowIx k j) f))
        + barr V c (ix2 (0 : Fin 1) f) :=
  (congrFun (final2_4 V c) (ix2 i f)).trans rfl

end Cert.KernelIdeal.Hand

end
-- ==== Proof.KernelIdeal.Host.lean ====
import proofs.«123510_g2000706009674355_pallasbulk_102_2_alg».proof.Proof.Gen.KernelIdeal.Regions
import Idealize.ShloMosaic.Lib.ValueLayout

/-! The operations between the regions, read at an index. -/

noncomputable section

namespace Cert.KernelIdeal.Hand

open Cert.KernelIdeal Cert.KernelIdeal.Gen
open Idealize.ShloMosaic Idealize.ShloMosaic.TcCoe Idealize.SL.Sem
open Idealize.ShloMosaic.StableHlo
open Idealize.ShloMosaic.ValueIdx

variable {F : FTy → Type} [FloatOps F]
variable (m : (ℓ : Loc nD τ sig) → Buf (Elt F) ℓ) (outs : Outs (F := F))

theorem V1_main_v0 (c : Dev nD) :
    (V1 m c main_v0 : S1x256.Idx → Elt F .f32) = shapeCast S1x256 (V0 m c main_arg3) shapeCasts_S256_S1x256 := by
  show StableHlo.after hostOps0 (V0 m c) (Proc.devRef .tc main_v0) = _
  after_results
  rfl

theorem V1_main_v0_apply (c : Dev nD) (f : Fin 256) :
    (V1 m c main_v0 : S1x256.Idx → Elt F .f32) (ix2 (0 : Fin 1) f) = (m ((c : Thread nD τ).loc main_arg3) : S256.Idx → Elt F .f32) (ix1 f) := by
  rw [V1_main_v0]
  refine shapeCast_apply (V0 m c main_arg3) shapeCasts_S256_S1x256 (ix2 (0 : Fin 1) f) (ix1 f) ?_
  show (S256.rowMajor (ix1 f)).val = (S1x256.rowMajor (ix2 (0 : Fin 1) f)).val
  rw [Shape.rowMajor_val_two, Shape.rowMajor_val_one]
  show f.val = 0 * 256 + f.val
  omega

theorem V3_main_call0_v1 (c : Dev nD) :
    (V3 m outs c main_call0_v1 : S8192x1.Idx → Elt F .f32) = shapeCast S8192x1 (V2 m outs c main_call0_v0) shapeCasts_S1x8192_S8192x1 := by
  show StableHlo.after hostOps1 (V2 m outs c) (Proc.devRef .tc main_call0_v1) = _
  after_results
  rfl

theorem V3_main_call0_v1_apply (c : Dev nD) (j : Fin 8192) :
    (V3 m outs c main_call0_v1 : S8192x1.Idx → Elt F .f32) (ix2 j (0 : Fin 1))
      = (V2 m outs c main_call0_v0 : S1x8192.Idx → Elt F .f32) (ix2 (0 : Fin 1) j) := by
  rw [V3_main_call0_v1]
  refine shapeCast_apply (V2 m outs c main_call0_v0) shapeCasts_S1x8192_S8192x1 (ix2 j (0 : Fin 1)) (ix2 (0 : Fin 1) j) ?_
  show (S1x8192.rowMajor (ix2 (0 : Fin 1) j)).val = (S8192x1.rowMajor (ix2 j (0 : Fin 1))).val
  rw [Shape.rowMajor_val_two, Shape.rowMajor_val_two]
  show 0 * 8192 + j.val = j.val * 1 + 0
  omega

end Cert.KernelIdeal.Hand

end
-- ==== Proof.Algebra.lean ====
import proofs.«123510_g2000706009674355_pallasbulk_102_2_alg».proof.Proof.Spec

/-! A sum over 8192 rows split into blocks. -/

noncomputable section

open scoped BigOperators

namespace Cert.Spec

theorem colsum_blocks {M : Type*} [AddCommMonoid M] (a : Fin 8192 → M) :
    (∑ r ∈ Finset.range 32, ∑ i : Fin 256, a ⟨(256 * r + i.val) % 8192, Nat.mod_lt _ (by decide)⟩) = ∑ i : Fin 8192, a i := by
  have h1 : ∑ i : Fin 8192, a i = ∑ n ∈ Finset.range 8192, a ⟨n % 8192, Nat.mod_lt _ (by decide)⟩ := by
    rw [← Fin.sum_univ_eq_sum_range (fun n => a ⟨n % 8192, Nat.mod_lt _ (by decide)⟩) 8192]
    exact Finset.sum_congr rfl fun i _ => congrArg a (Fin.ext (Nat.mod_eq_of_lt i.isLt).symm)
  have h2 := sum_range_mul (fun n => a ⟨n % 8192, Nat.mod_lt _ (by decide)⟩) 32 256
  rw [show 32 * 256 = 8192 from rfl] at h2
  rw [h1, h2]
  refine Finset.sum_congr rfl fun r _ => ?_
  exact Fin.sum_univ_eq_sum_range (fun i => a ⟨(256 * r + i) % 8192, Nat.mod_lt _ (by decide)⟩) 256

end Cert.Spec

end
-- ==== Proof.Layer.lean ====
import proofs.«123510_g2000706009674355_pallasbulk_102_2_alg».proof.Proof.Algebra

/-! The two programs' formulas are one. -/

noncomputable section

namespace Cert.Spec

open Idealize.ShloMosaic Idealize.ShloMosaic.ValueIdx

abbrev SNN : Shape := ⟨2, ![8192, 8192]⟩
abbrev SNM : Shape := ⟨2, ![8192, 256]⟩
abbrev SMF : Shape := ⟨2, ![256, 256]⟩
abbrev SF : Shape := ⟨1, ![256]⟩

abbrev rowOf (b k : ℕ) (j : ℕ) : Fin 8192 := ⟨(b * k + j) % 8192, Nat.mod_lt _ (by decide)⟩

def degBlocks (G : SNN.Idx → EReal) (j : Fin 8192) : EReal :=
  ∑ r ∈ Finset.range 32, ∑ i : Fin 256, G (ix2 (rowOf 256 r i.val) j)

def degFlat (G : SNN.Idx → EReal) (j : Fin 8192) : EReal :=
  Z + ∑ i : Fin 8192, G (ix2 i j)

theorem degBlocks_eq_degFlat (G : SNN.Idx → EReal) (j : Fin 8192) : degBlocks G j = degFlat G j := by
  unfold degBlocks degFlat
  rw [Z_eq, zero_add]
  exact colsum_blocks (fun i => G (ix2 i j))

def yOf (D : Fin 8192 → EReal) (G : SNN.Idx → EReal) (X : SNM.Idx → EReal) (W : SMF.Idx → EReal) (B : SF.Idx → EReal)
    (i : Fin 8192) (f : Fin 256) : EReal :=
  D i * (∑ k ∈ Finset.range 16, ∑ j : Fin 512,
      G (ix2 (rowOf 512 k j.val) i) * (D (rowOf 512 k j.val) * ∑ mm : Fin 256, X (ix2 (rowOf 512 k j.val) mm) * W (ix2 mm f)))
    + B (ix1 f)

theorem yOf_blocks_eq_flat (G : SNN.Idx → EReal) (X : SNM.Idx → EReal) (W : SMF.Idx → EReal) (B : SF.Idx → EReal)
    (i : Fin 8192) (f : Fin 256) :
    yOf (fun j => dinvOf (degBlocks G j)) G X W B i f = yOf (fun j => dinvOf (degFlat G j)) G X W B i f := by
  simp only [degBlocks_eq_degFlat]

end Cert.Spec

end
-- ==== Proof.KernelIdeal.Final.lean ====
import proofs.«123510_g2000706009674355_pallasbulk_102_2_alg».proof.Proof.KernelIdeal.Run
import proofs.«123510_g2000706009674355_pallasbulk_102_2_alg».proof.Proof.KernelIdeal.Val0
import proofs.«123510_g2000706009674355_pallasbulk_102_2_alg».proof.Proof.KernelIdeal.Val1
import proofs.«123510_g2000706009674355_pallasbulk_102_2_alg».proof.Proof.KernelIdeal.Val2
import proofs.«123510_g2000706009674355_pallasbulk_102_2_alg».proof.Proof.KernelIdeal.Host
import proofs.«123510_g2000706009674355_pallasbulk_102_2_alg».proof.Proof.Layer

/-! The program's result as one formula of its four arguments. -/

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

abbrev VA : (c : Dev nD) → (b : Ref sig .tc) → Buf (Elt Ideal) ((c : Thread nD τ).loc b) := atTc (V1 m)
abbrev VB : (c : Dev nD) → (b : Ref sig .tc) → Buf (Elt Ideal) ((c : Thread nD τ).loc b) := atTc (V3 m (outsB m))
abbrev VC : (c : Dev nD) → (b : Ref sig .tc) → Buf (Elt Ideal) ((c : Thread nD τ).loc b) := atTc (V4 m (outsC m))

theorem X2_main_call0_v0 (c : Dev nD) : X2 m c main_call0_v0 = (dat0 (VA m) c).arrAt 1 cfg0.N := by
  unfold X2
  exact Pipeline.withArrays_arr spec0 launch0.win.arr_inj c (V1 m c) (fun w => (dat0 (atTc (V1 m)) c).arrAt w cfg0.N) 1

theorem X4_main_call0_v2 (c : Dev nD) : X4 m c main_call0_v2 = (dat1 (VB m) c).arrAt 3 cfg1.N := by
  unfold X4
  exact Pipeline.withArrays_arr spec1 launch1.win.arr_inj c (V3 m (outsB m) c) (fun w => (dat1 (atTc (V3 m (outsB m))) c).arrAt w cfg1.N) 3

theorem X5_main_v1 (c : Dev nD) : X5 m c main_v1 = (dat2 (VC m) c).arrAt 4 cfg2.N := by
  unfold X5
  exact Pipeline.withArrays_arr spec2 launch2.win.arr_inj c (V4 m (outsC m) c) (fun w => (dat2 (atTc (V4 m (outsC m))) c).arrAt w cfg2.N) 4

theorem VA_main_arg1 (c : Dev nD) : VA m c main_arg1 = m ((c : Thread nD τ).loc main_arg1) :=
  (V1_of m c main_arg1 (by decide)).trans rfl

theorem VB_main_arg0 (c : Dev nD) : VB m c main_arg0 = m ((c : Thread nD τ).loc main_arg0) :=
  (V3_of m (outsB m) c main_arg0 (by decide)).trans <| (V2_of m (outsB m) c main_arg0 (by decide)).trans <| (V1_of m c main_arg0 (by decide)).trans rfl

theorem VB_main_arg2 (c : Dev nD) : VB m c main_arg2 = m ((c : Thread nD τ).loc main_arg2) :=
  (V3_of m (outsB m) c main_arg2 (by decide)).trans <| (V2_of m (outsB m) c main_arg2 (by decide)).trans <| (V1_of m c main_arg2 (by decide)).trans rfl

theorem VC_main_arg1 (c : Dev nD) : VC m c main_arg1 = m ((c : Thread nD τ).loc main_arg1) :=
  (V4_of m (outsC m) c main_arg1 (by decide)).trans <| (V3_of m (outsC m) c main_arg1 (by decide)).trans <| (V2_of m (outsC m) c main_arg1 (by decide)).trans <| (V1_of m c main_arg1 (by decide)).trans rfl

theorem VC_main_v0 (c : Dev nD) : VC m c main_v0 = V1 m c main_v0 :=
  (V4_of m (outsC m) c main_v0 (by decide)).trans <| (V3_of m (outsC m) c main_v0 (by decide)).trans <| (V2_of m (outsC m) c main_v0 (by decide))

theorem VC_main_call0_v1 (c : Dev nD) : VC m c main_call0_v1 = VB m c main_call0_v1 :=
  (V4_of m (outsC m) c main_call0_v1 (by decide)).trans rfl

theorem VC_main_call0_v2 (c : Dev nD) : VC m c main_call0_v2 = (dat1 (VB m) c).arrAt 3 cfg1.N := by
  show Function.update (V3 m (outsC m) c) main_call0_v2 (outsC m 4 main_call0_v2 c) main_call0_v2 = _
  rw [Function.update_self]
  exact X4_main_call0_v2 m c

theorem V2_main_call0_v0 (c : Dev nD) : V2 m (outsB m) c main_call0_v0 = (dat0 (VA m) c).arrAt 1 cfg0.N := by
  show Function.update (V1 m c) main_call0_v0 (outsB m 2 main_call0_v0 c) main_call0_v0 = _
  rw [Function.update_self]
  exact X2_main_call0_v0 m c

abbrev garg (c : Dev nD) : Cert.Spec.SNN.Idx → EReal := m ((c : Thread nD τ).loc main_arg1)
abbrev xarg (c : Dev nD) : Cert.Spec.SNM.Idx → EReal := m ((c : Thread nD τ).loc main_arg0)
abbrev warg (c : Dev nD) : Cert.Spec.SMF.Idx → EReal := m ((c : Thread nD τ).loc main_arg2)
abbrev barg (c : Dev nD) : Cert.Spec.SF.Idx → EReal := m ((c : Thread nD τ).loc main_arg3)

abbrev dOf (c : Dev nD) (j : Fin 8192) : EReal := Cert.Spec.dinvOf (Cert.Spec.degBlocks (garg m c) j)

theorem drow_apply (c : Dev nD) (j : Fin 8192) :
    (V2 m (outsB m) c main_call0_v0 : S1x8192.Idx → EReal) (ix2 (0 : Fin 1) j) = dOf m c j := by
  rw [V2_main_call0_v0 m c]
  refine (Val0.final_apply (VA m) c j).trans ?_
  rw [VA_main_arg1 m c]
  rfl

theorem dcol_apply (c : Dev nD) (j : Fin 8192) :
    (VB m c main_call0_v1 : S8192x1.Idx → EReal) (ix2 j (0 : Fin 1)) = dOf m c j :=
  (V3_main_call0_v1_apply m (outsB m) c j).trans (drow_apply m c j)

theorem bias_apply (c : Dev nD) (f : Fin 256) :
    (VC m c main_v0 : S1x256.Idx → EReal) (ix2 (0 : Fin 1) f) = barg m c (ix1 f) := by
  rw [VC_main_v0 m c]
  exact V1_main_v0_apply m c f

theorem hs_apply (c : Dev nD) (j : Fin 8192) (f : Fin 256) :
    (VC m c main_call0_v2 : S8192x256.Idx → EReal) (ix2 j f)
      = dOf m c j * ∑ mm : Fin 256, xarg m c (ix2 j mm) * warg m c (ix2 mm f) := by
  rw [VC_main_call0_v2 m c]
  refine (Val1.final_apply (VB m) c j f).trans ?_
  exact congrArg₂ (· * ·) (dcol_apply m c j) (Finset.sum_congr rfl fun mm _ =>
    congrArg₂ (· * ·) (congrFun (VB_main_arg0 m c) (ix2 j mm)) (congrFun (VB_main_arg2 m c) (ix2 mm f)))

theorem result_apply (c : Dev nD) (i : Fin 8192) (f : Fin 256) :
    (X5 m c main_v1 : S8192x256.Idx → EReal) (ix2 i f)
      = Cert.Spec.yOf (fun j => Cert.Spec.dinvOf (Cert.Spec.degBlocks (m ((c : Thread nD τ).loc main_arg1)) j))
          (m ((c : Thread nD τ).loc main_arg1)) (m ((c : Thread nD τ).loc main_arg0)) (m ((c : Thread nD τ).loc main_arg2))
          (m ((c : Thread nD τ).loc main_arg3)) i f := by
  rw [X5_main_v1 m c]
  refine (val2_apply (VC m) c i f).trans ?_
  unfold Cert.Spec.yOf
  refine congrArg₂ (· + ·) (congrArg₂ (· * ·) ((congrFun (VC_main_call0_v1 m c) (ix2 i (0 : Fin 1))).trans (dcol_apply m c i))
    (Finset.sum_congr rfl fun k _ => Finset.sum_congr rfl fun j _ => ?_)) (bias_apply m c f)
  exact congrArg₂ (· * ·) (congrFun (VC_main_arg1 m c) (ix2 (Cert.Spec.rowOf 512 k j.val) i)) (hs_apply m c (Cert.Spec.rowOf 512 k j.val) f)

end Cert.KernelIdeal.Hand

end
-- ==== Proof.ReferenceIdeal.Val0.lean ====
import proofs.«123510_g2000706009674355_pallasbulk_102_2_alg».proof.Proof.ReferenceIdeal.R0
import Idealize.ShloMosaic.Lib.ValueLayout
import Idealize.ShloMosaic.PureOps.Ideal.Laws

/-! The feature product's result at an index. -/

noncomputable section

namespace Cert.ReferenceIdeal.Hand.Val0

open Cert.ReferenceIdeal Cert.ReferenceIdeal.Gen Cert.ReferenceIdeal.Hand Idealize.ShloMosaic Idealize.ShloMosaic.ValueIdx
open scoped BigOperators

theorem lhs_hs_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide),
    dif_pos (show (0 : Fin S512x256.rank) ∈ dot_S512x256_S256x256_S512x256_1_0_0_1_n_n.lhsNonContracting by decide)]
  rfl
theorem lhs_hs_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_hs_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_hs_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide),
    dif_pos (show (1 : Fin S256x256.rank) ∈ dot_S512x256_S256x256_S512x256_1_0_0_1_n_n.rhsNonContracting by decide)]
  rfl

theorem matmul_hs_apply (x0 : FVec Ideal S512x256 .f32) (x1 : FVec Ideal S256x256 .f32) (i : S512x256.Idx) :
    matmul dot_S512x256_S256x256_S512x256_1_0_0_1_n_n none x0 x1 (constant (F := Ideal) S512x256 .f32 0x00000000#32) i
      = ∑ k : Fin 256, x0 (ix2 (i 0) k) * x1 (ix2 k (i 1)) := by
  show FloatOps.matmul dot_S512x256_S256x256_S512x256_1_0_0_1_n_n none x0 x1 (constant (F := Ideal) S512x256 .f32 0x00000000#32) i = _
  rw [Ideal.matmul_constant_zero_apply, ← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx i ((ValueIdx.contrEquiv1 dot_S512x256_S256x256_S512x256_1_0_0_1_n_n 256 rfl rfl).symm k) = ix2 (i 0) k :=
    funext fun a => Fin.ext (by
      match a with
      | ⟨0, _⟩ => exact lhs_hs_0 _ _
      | ⟨1, _⟩ => exact (lhs_hs_1 _ _).trans hk)
  have er : dot_S512x256_S256x256_S512x256_1_0_0_1_n_n.rhsIdx i ((ValueIdx.contrEquiv1 dot_S512x256_S256x256_S512x256_1_0_0_1_n_n 256 rfl rfl).symm k) = ix2 k (i 1) :=
    funext fun a => Fin.ext (by
      match a with
      | ⟨0, _⟩ => exact (rhs_hs_0 _ _).trans hk
      | ⟨1, _⟩ => exact rhs_hs_1 _ _)
  rw [el, er]
  rfl

theorem bcast_col_apply (x2 : Vec Ideal S512x1 .f32) (i : S512x256.Idx) :
    broadcastTo S512x256 x2 broadcasts_S512x1_S512x256 i = x2 (ix2 (i 0) 0) :=
  broadcastTo_apply x2 broadcasts_S512x1_S512x256 i (ix2 (i 0) 0) fun a => by
    match a with
    | ⟨0, _⟩ => rfl
    | ⟨1, _⟩ => rfl

theorem pay_apply (x0 : Vec Ideal S512x256 .f32) (x1 : Vec Ideal S256x256 .f32) (x2 : Vec Ideal S512x1 .f32) (i : S512x256.Idx) :
    k0_pay1 (F := Ideal) x0 x1 x2 i = x2 (ix2 (i 0) 0) * ∑ k : Fin 256, x0 (ix2 (i 0) k) * x1 (ix2 k (i 1)) := by
  unfold k0_pay1
  simp only [shapeCast_self]
  exact congrArg₂ (· * ·) (bcast_col_apply x2 i) (matmul_hs_apply x0 x1 i)

section Blocks

open Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

abbrev xarr (c : Dev nD) : Vec Ideal S8192x256 .f32 := V c main_call0_v6
abbrev warr (c : Dev nD) : Vec Ideal S256x256 .f32 := V c main_call0_v10
abbrev darr (c : Dev nD) : Vec Ideal S8192x1 .f32 := V c main_call0_v16

abbrev G (x : Vec Ideal S8192x256 .f32) (w : Vec Ideal S256x256 .f32) (d : Vec Ideal S8192x1 .f32) : Vec Ideal S8192x256 .f32 :=
  fun i => d (ix2 (i 0) 0) * ∑ m : Fin 256, x (ix2 (i 0) m) * w (ix2 m (i 1))

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem iblk_x_apply (c : Dev nD) (t : Fin cfg0.N) (y : S512x256.Idx) (k : S8192x256.Idx)
    (hk0 : (k 0).val = t.val * 512 + (y 0).val) (hk1 : (k 1).val = (y 1).val) :
    (iblk0 V c 0 t : Vec Ideal S512x256 .f32) y = xarr V c k := by
  obtain ⟨e0, e1, -⟩ := idx_facts t
  unfold iblk0
  rw [View.read_apply]
  show V c main_call0_v6 _ = V c main_call0_v6 _
  congr 1
  funext a
  apply Fin.ext
  match a with
  | ⟨0, _⟩ => show win0_0.index t (0 : Fin 2) * 512 + 1 * (y 0).val = (k 0).val; rw [e0, hk0]; omega
  | ⟨1, _⟩ => show win0_0.index t (1 : Fin 2) * 256 + 1 * (y 1).val = (k 1).val; rw [e1, hk1]; omega

theorem iblk_w_apply (c : Dev nD) (t : Fin cfg0.N) (y : S256x256.Idx) :
    (iblk0 V c 1 t : Vec Ideal S256x256 .f32) y = warr V c y := by
  obtain ⟨-, -, e2, e3, -⟩ := idx_facts t
  unfold iblk0
  rw [View.read_apply]
  show V c main_call0_v10 _ = V c main_call0_v10 _
  congr 1
  funext a
  apply Fin.ext
  match a with
  | ⟨0, _⟩ => show win0_1.index t (0 : Fin 2) * 256 + 1 * (y 0).val = (y 0).val; rw [e2]; omega
  | ⟨1, _⟩ => show win0_1.index t (1 : Fin 2) * 256 + 1 * (y 1).val = (y 1).val; rw [e3]; omega

theorem iblk_d_apply (c : Dev nD) (t : Fin cfg0.N) (y : S512x1.Idx) (k : S8192x1.Idx)
    (hk0 : (k 0).val = t.val * 512 + (y 0).val) (hk1 : (k 1).val = (y 1).val) :
    (iblk0 V c 2 t : Vec Ideal S512x1 .f32) y = darr V c k := by
  obtain ⟨-, -, -, -, e4, e5, -⟩ := idx_facts t
  unfold iblk0
  rw [View.read_apply]
  show V c main_call0_v16 _ = V c main_call0_v16 _
  congr 1
  funext a
  apply Fin.ext
  match a with
  | ⟨0, _⟩ => show win0_2.index t (0 : Fin 2) * 512 + 1 * (y 0).val = (k 0).val; rw [e4, hk0]; omega
  | ⟨1, _⟩ => show win0_2.index t (1 : Fin 2) * 1 + 1 * (y 1).val = (k 1).val; rw [e5, hk1]; omega

theorem pay_blocks (c : Dev nD) (t : Fin cfg0.N) (y : S512x256.Idx) (i : S8192x256.Idx)
    (h0 : (i 0).val = t.val * 512 + (y 0).val) (h1 : (i 1).val = (y 1).val) :
    k0_pay1 (F := Ideal) (iblk0 V c 0 t) (iblk0 V c 1 t) (iblk0 V c 2 t) y = G (xarr V c) (warr V c) (darr V c) i := by
  refine (pay_apply (iblk0 V c 0 t) (iblk0 V c 1 t) (iblk0 V c 2 t) y).trans ?_
  show _ = darr V c (ix2 (i 0) 0) * ∑ m : Fin 256, xarr V c (ix2 (i 0) m) * warr V c (ix2 m (i 1))
  refine congrArg₂ (· * ·) ?_ (Finset.sum_congr rfl fun m _ => congrArg₂ (· * ·) ?_ ?_)
  · exact iblk_d_apply V c t (ix2 (y 0) 0) (ix2 (i 0) 0) h0 rfl
  · exact iblk_x_apply V c t (ix2 (y 0) m) (ix2 (i 0) m) h0 rfl
  · exact (iblk_w_apply V c t (ix2 m (y 1))).trans (congrArg (fun q => warr V c (ix2 m q)) (Fin.ext h1.symm))

theorem flushed_eq (c : Dev nD) (t : Fin cfg0.N) :
    (dat0 V c).flushed 3 t = ((cfg0.win 3).blk t).view.read (Elt Ideal) (G (xarr V c) (warr V c) (darr V c)) := by
  show (cfg0.win 3).cut (grid0.coords t) ((dat0 V c).after 3 t) = _
  rw [after0_3]
  unfold out0_3
  rw [View.canon_unit_zero hz]
  simp only [View.ld_unit_zero (S := S512x256) hz, View.ld_unit_zero (S := S256x256) hz, View.ld_unit_zero (S := S512x1) hz]
  obtain ⟨-, -, -, -, -, -, e6, e7⟩ := idx_facts t
  funext y
  have hy0 : (y 0).val < 512 := (y 0).isLt
  have hy1 : (y 1).val < 256 := (y 1).isLt
  refine pay_blocks V c t y (((cfg0.win 3).blk t).view.emb y) ?_ ?_
  · show win0_3.index t (0 : Fin 2) * 512 + 1 * (y 0).val = _; rw [e6]; omega
  · show win0_3.index t (1 : Fin 2) * 256 + 1 * (y 1).val = _; rw [e7]; omega

theorem mem_blk (t : Fin cfg0.N) (i : S8192x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_call0_v17).slice (win0_3.rect t)).set ↔ _
  rw [View.set_slice_whole, Rect.mem_set_unit]
  exact Iff.rfl

theorem covered (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  have hN : cfg0.N = 16 := N_0
  refine ⟨⟨(i 0).val / 512, by rw [hN]; omega⟩, flush0_3 _, ?_⟩
  rw [mem_blk]
  obtain ⟨-, -, -, -, -, -, e6, e7⟩ := idx_facts ⟨(i 0).val / 512, by rw [hN]; omega⟩
  intro a
  match a with
  | ⟨0, _⟩ =>
    show win0_3.index ⟨(i 0).val / 512, _⟩ (0 : Fin 2) * 512 ≤ (i 0).val ∧ (i 0).val < win0_3.index ⟨(i 0).val / 512, _⟩ (0 : Fin 2) * 512 + 512
    rw [e6]; show (i 0).val / 512 * 512 ≤ (i 0).val ∧ (i 0).val < (i 0).val / 512 * 512 + 512; omega
  | ⟨1, _⟩ =>
    show win0_3.index ⟨(i 0).val / 512, _⟩ (1 : Fin 2) * 256 ≤ (i 1).val ∧ (i 1).val < win0_3.index ⟨(i 0).val / 512, _⟩ (1 : Fin 2) * 256 + 256
    rw [e7]; omega

theorem final (c : Dev nD) : (dat0 V c).arrAt 3 cfg0.N = G (xarr V c) (warr V c) (darr V c) :=
  (dat0 V c).arrAt_eq_of_cover 3 (G (xarr V c) (warr V c) (darr V c)) (fun t _ => flushed_eq V c t) covered

theorem final_apply (c : Dev nD) (j : Fin 8192) (f : Fin 256) :
    ((dat0 V c).arrAt 3 cfg0.N : Vec Ideal S8192x256 .f32) (ix2 j f)
      = darr V c (ix2 j 0) * ∑ m : Fin 256, xarr V c (ix2 j m) * warr V c (ix2 m f) := by
  rw [final]

end Blocks

end Cert.ReferenceIdeal.Hand.Val0

end
-- ==== Proof.ReferenceIdeal.Val1.lean ====
import proofs.«123510_g2000706009674355_pallasbulk_102_2_alg».proof.Proof.ReferenceIdeal.R1
import proofs.«123510_g2000706009674355_pallasbulk_102_2_alg».proof.Proof.Spec
import Idealize.ShloMosaic.Lib.Pipeline.Value

/-! The aggregation's result at an index: the accumulator after step s of a row of blocks is the sum of the first s + 1 block products. -/

noncomputable section

namespace Cert.ReferenceIdeal.Hand

open Cert.ReferenceIdeal Cert.ReferenceIdeal.Gen
open Idealize.ShloMosaic Idealize.ShloMosaic.TcCoe Idealize.ShloMosaic.Tactic Idealize.ShloMosaic.ValueIdx
open Idealize.SL Idealize.SL.Sem
open Idealize.ShloMosaic.Pipeline (Dat)
open scoped BigOperators

section CaseValues
variable {F : FTy → Type} [FloatOps F]

theorem hz2 : (![0, 0] : Fin 2 → Nat) = fun _ => 0 := funext fun a => by fin_cases a <;> rfl

variable (c : Dev nD) (i : grid1.Coords)
  {arg2 : Memref sig .tc .vmem S512x256 .f32} (harg2 : arg2.IsWhole) {arg3 : Memref sig .tc .vmem S512x256 .f32} (harg3 : arg3.IsWhole)
  {arg4 : Memref sig .tc .vmem S256x1 .f32} (harg4 : arg4.IsWhole) {arg5 : Memref sig .tc .vmem S1x256 .f32} (harg5 : arg5.IsWhole)
  {arg6 : Memref sig .tc .vmem S256x256 .f32} (harg6 : arg6.IsWhole) {arg7 : Memref sig .tc .vmem S256x256 .f32} (harg7 : arg7.IsWhole)

theorem sout_A (hc0 : cond1_0 i) (hc1 : ¬cond1_1 i)
    (x0 : Vec F S512x256 .f32) (x1 : Vec F S512x256 .f32) (x2 : Vec F S256x1 .f32) (x3 : Vec F S1x256 .f32) :
    sout1_A_0 c i harg2 harg3 harg4 harg5 harg6 harg7 hc0 hc1 x0 x1 x2 x3 = k1_pay2 (k1_pay1 (F := F)) x0 x1 := by
  unfold sout1_A_0
  rw [View.read_writes_junk_eq_canon]
  unfold kernelRun1_A
  dsimp only
  sl_unfold_words
  rw [View.canon_cons_unit_zero (S := S256x256) hz2, View.readCov_unit_zero (S := S256x256) _ hz2]
  simp only [View.readAt_eq_ld, harg2.read_unread, harg3.read_unread, harg4.read_unread, harg5.read_unread, harg7.read_unread, View.ld_unit_zero (S := S512x256) hz2, View.ld_unit_zero (S := S256x256) hz2, View.ld_unit_zero (S := S256x1) hz2, View.ld_unit_zero (S := S1x256) hz2]

theorem sout_B (hc0 : ¬cond1_0 i) (hc1 : ¬cond1_1 i)
    (x0 : Vec F S512x256 .f32) (x1 : Vec F S512x256 .f32) (x2 : Vec F S256x1 .f32) (x3 : Vec F S1x256 .f32) (xs0 : Vec F S256x256 .f32) :
    sout1_B_0 c i harg2 harg3 harg4 harg5 harg6 harg7 hc0 hc1 x0 x1 x2 x3 xs0 = k1_pay2 xs0 x0 x1 := by
  unfold sout1_B_0
  rw [View.read_writes_junk_eq_canon]
  unfold kernelRun1_B
  dsimp only
  sl_unfold_words
  rw [View.canon_cons_unit_zero (S := S256x256) hz2]
  simp only [View.readAt_eq_ld, harg2.read_unread, harg3.read_unread, harg4.read_unread, harg5.read_unread, harg7.read_unread, View.ld_unit_zero (S := S512x256) hz2, View.ld_unit_zero (S := S256x256) hz2, View.ld_unit_zero (S := S256x1) hz2, View.ld_unit_zero (S := S1x256) hz2]

theorem sout_C (hc0 : ¬cond1_0 i) (hc1 : cond1_1 i)
    (x0 : Vec F S512x256 .f32) (x1 : Vec F S512x256 .f32) (x2 : Vec F S256x1 .f32) (x3 : Vec F S1x256 .f32) (xs0 : Vec F S256x256 .f32) :
    sout1_C_0 c i harg2 harg3 harg4 harg5 harg6 harg7 hc0 hc1 x0 x1 x2 x3 xs0 = k1_pay2 xs0 x0 x1 := by
  unfold sout1_C_0
  rw [View.read_writes_junk_eq_canon]
  unfold kernelRun1_C
  dsimp only
  sl_unfold_words
  rw [View.canon_cons_unit_zero (S := S256x256) hz2]
  simp only [View.readAt_eq_ld, harg2.read_unread, harg3.read_unread, harg4.read_unread, harg5.read_unread, harg7.read_unread, View.ld_unit_zero (S := S512x256) hz2, View.ld_unit_zero (S := S256x256) hz2, View.ld_unit_zero (S := S256x1) hz2, View.ld_unit_zero (S := S1x256) hz2]

theorem out_C (hc0 : ¬cond1_0 i) (hc1 : cond1_1 i)
    (x0 : Vec F S512x256 .f32) (x1 : Vec F S512x256 .f32) (x2 : Vec F S256x1 .f32) (x3 : Vec F S1x256 .f32) (xs0 : Vec F S256x256 .f32) :
    out1_C_4 c i harg2 harg3 harg4 harg5 harg6 harg7 hc0 hc1 x0 x1 x2 x3 xs0 = k1_pay3 x2 (k1_pay2 xs0 x0 x1) x3 := by
  unfold out1_C_4
  rw [View.read_writes_junk_eq_canon]
  unfold kernelRun1_C
  dsimp only
  sl_unfold_words
  rw [View.canon_cons_unit_zero (S := S256x256) hz2, View.readCov_unit_zero (S := S256x256) _ hz2]
  simp only [View.readAt_eq_ld, harg2.read_unread, harg3.read_unread, harg4.read_unread, harg5.read_unread, harg7.read_unread, View.ld_unit_zero (S := S512x256) hz2, View.ld_unit_zero (S := S256x256) hz2, View.ld_unit_zero (S := S256x1) hz2, View.ld_unit_zero (S := S1x256) hz2]

end CaseValues

theorem pay1_apply (a b : Fin 256) : k1_pay1 (F := Ideal) (ix2 a b) = Ideal.ofBits .f32 0x00000000#32 := by
  unfold k1_pay1
  simp only [shapeCast_self]
  rfl

theorem pay2_apply (acc : FVec Ideal S256x256 .f32) (g h : FVec Ideal S512x256 .f32) (a b : Fin 256) :
    k1_pay2 (F := Ideal) acc g h (ix2 a b) = acc (ix2 a b) + ∑ j : Fin 512, g (ix2 j a) * h (ix2 j b) := by
  unfold k1_pay2
  simp only [shapeCast_self]
  show acc (ix2 a b) + FloatOps.matmul (F := Ideal) dot_S512x256_S512x256_S256x256_0_0_1_1_n_n none g h (constant (F := Ideal) S256x256 .f32 0x00000000#32) (ix2 a b) = _
  rw [Ideal.matmul_constant_zero_apply, ← Equiv.sum_comp (contrEquiv1 dot_S512x256_S512x256_S256x256_0_0_1_1_n_n 512 rfl rfl).symm]
  refine congrArg (acc (ix2 a b) + ·) (Finset.sum_congr rfl fun j _ => ?_)
  have c2 := contrEquiv1_symm_val dot_S512x256_S512x256_S256x256_0_0_1_1_n_n 512 rfl rfl j
  have l2 : dot_S512x256_S512x256_S256x256_0_0_1_1_n_n.lhsIdx (ix2 a b) ((contrEquiv1 _ 512 rfl rfl).symm j) = ix2 j a := by
    funext ax; apply Fin.ext
    match ax with
    | ⟨0, _⟩ => simp [DotDims.lhsIdx, dot_S512x256_S512x256_S256x256_0_0_1_1_n_n]; exact c2
    | ⟨1, _⟩ => simp [DotDims.lhsIdx, dot_S512x256_S512x256_S256x256_0_0_1_1_n_n]; rfl
  have r2 : dot_S512x256_S512x256_S256x256_0_0_1_1_n_n.rhsIdx (ix2 a b) ((contrEquiv1 _ 512 rfl rfl).symm j) = ix2 j b := by
    funext ax; apply Fin.ext
    match ax with
    | ⟨0, _⟩ => simp [DotDims.rhsIdx, dot_S512x256_S512x256_S256x256_0_0_1_1_n_n]; exact c2
    | ⟨1, _⟩ => simp [DotDims.rhsIdx, dot_S512x256_S512x256_S256x256_0_0_1_1_n_n]; rfl
  rw [l2, r2]

theorem pay3_apply (d : FVec Ideal S256x1 .f32) (acc : FVec Ideal S256x256 .f32) (bias : FVec Ideal S1x256 .f32) (a b : Fin 256) :
    k1_pay3 (F := Ideal) d acc bias (ix2 a b) = d (ix2 a 0) * acc (ix2 a b) + bias (ix2 0 b) := by
  unfold k1_pay3
  simp only [shapeCast_self]
  show broadcastTo S256x256 d broadcasts_S256x1_S256x256 (ix2 a b) * acc (ix2 a b) + broadcastTo S256x256 bias broadcasts_S1x256_S256x256 (ix2 a b) = _
  rw [broadcastTo_apply d broadcasts_S256x1_S256x256 (ix2 a b) (ix2 a 0) (fun ax => by match ax with | ⟨0, _⟩ => rfl | ⟨1, _⟩ => rfl),
    broadcastTo_apply bias broadcasts_S1x256_S256x256 (ix2 a b) (ix2 0 b) (fun ax => by match ax with | ⟨0, _⟩ => rfl | ⟨1, _⟩ => rfl)]

section Ideal

variable (V : (c : Dev nD) → (b : Ref sig .tc) → Buf (Elt Ideal) ((c : Thread nD τ).loc b))

theorem idx1_0 : ∀ t : Fin grid1.N, win1_0.index t 0 = t.val % 16 ∧ win1_0.index t 1 = t.val / 16 := by decide +kernel
theorem idx1_1 : ∀ t : Fin grid1.N, win1_1.index t 0 = t.val % 16 ∧ win1_1.index t 1 = 0 := by decide +kernel
theorem idx1_2 : ∀ t : Fin grid1.N, win1_2.index t 0 = t.val / 16 ∧ win1_2.index t 1 = 0 := by decide +kernel
theorem idx1_3 : ∀ t : Fin grid1.N, win1_3.index t 0 = 0 ∧ win1_3.index t 1 = 0 := by decide +kernel
theorem idx1_4 : ∀ t : Fin grid1.N, win1_4.index t 0 = t.val / 16 ∧ win1_4.index t 1 = 0 := by decide +kernel

theorem lt_N1 (t : Fin cfg1.N) : t.val < 512 := lt_of_lt_of_eq t.isLt (show cfg1.N = 512 from N_1)

theorem iblk0_apply (c : Dev nD) (t : Fin cfg1.N) (j : Fin 512) (a : Fin 256) :
    (iblk1 V c 0 t : Vec Ideal S512x256 .f32) (ix2 j a)
      = V c main_call0_v8 (ix2 ⟨(512 * (t.val % 16) + j.val) % 8192, Nat.mod_lt _ (by decide)⟩ ⟨(256 * (t.val / 16) + a.val) % 8192, Nat.mod_lt _ (by decide)⟩) := by
  have hi := idx1_0 t
  have hN := lt_N1 t
  unfold iblk1
  rw [View.read_apply]
  show V c main_call0_v8 _ = V c main_call0_v8 _
  congr 1
  funext ax; apply Fin.ext
  match ax with
  | ⟨0, _⟩ => show win1_0.index t 0 * 512 + 1 * j.val = (512 * (t.val % 16) + j.val) % 8192; rw [hi.1]; omega
  | ⟨1, _⟩ => show win1_0.index t 1 * 256 + 1 * a.val = (256 * (t.val / 16) + a.val) % 8192; rw [hi.2]; omega

theorem iblk1_apply (c : Dev nD) (t : Fin cfg1.N) (j : Fin 512) (b : Fin 256) :
    (iblk1 V c 1 t : Vec Ideal S512x256 .f32) (ix2 j b)
      = V c main_call0_v17 (ix2 ⟨(512 * (t.val % 16) + j.val) % 8192, Nat.mod_lt _ (by decide)⟩ b) := by
  have hi := idx1_1 t
  have hN := lt_N1 t
  unfold iblk1
  rw [View.read_apply]
  show V c main_call0_v17 _ = V c main_call0_v17 _
  congr 1
  funext ax; apply Fin.ext
  match ax with
  | ⟨0, _⟩ => show win1_1.index t 0 * 512 + 1 * j.val = (512 * (t.val % 16) + j.val) % 8192; rw [hi.1]; omega
  | ⟨1, _⟩ => show win1_1.index t 1 * 256 + 1 * b.val = b.val; rw [hi.2]; omega

theorem iblk2_apply (c : Dev nD) (t : Fin cfg1.N) (a : Fin 256) :
    (iblk1 V c 2 t : Vec Ideal S256x1 .f32) (ix2 a 0)
      = V c main_call0_v16 (ix2 ⟨(256 * (t.val / 16) + a.val) % 8192, Nat.mod_lt _ (by decide)⟩ 0) := by
  have hi := idx1_2 t
  have hN := lt_N1 t
  unfold iblk1
  rw [View.read_apply]
  show V c main_call0_v16 _ = V c main_call0_v16 _
  congr 1
  funext ax; apply Fin.ext
  match ax with
  | ⟨0, _⟩ => show win1_2.index t 0 * 256 + 1 * a.val = (256 * (t.val / 16) + a.val) % 8192; rw [hi.1]; omega
  | ⟨1, _⟩ => show win1_2.index t 1 * 1 + 1 * 0 = 0; rw [hi.2]

theorem iblk3_apply (c : Dev nD) (t : Fin cfg1.N) (b : Fin 256) :
    (iblk1 V c 3 t : Vec Ideal S1x256 .f32) (ix2 0 b) = V c main_call0_v13 (ix2 0 b) := by
  have hi := idx1_3 t
  unfold iblk1
  rw [View.read_apply]
  show V c main_call0_v13 _ = V c main_call0_v13 _
  congr 1
  funext ax; apply Fin.ext
  match ax with
  | ⟨0, _⟩ => show win1_3.index t 0 * 1 + 1 * 0 = 0; rw [hi.1]
  | ⟨1, _⟩ => show win1_3.index t 1 * 256 + 1 * b.val = b.val; rw [hi.2]; omega

end Ideal

section Fold

variable (V : (c : Dev nD) → (b : Ref sig .tc) → Buf (Elt Ideal) ((c : Thread nD τ).loc b))

abbrev gAt (c : Dev nD) (x y : Fin 8192) : EReal := V c main_call0_v8 (ix2 x y)
abbrev hAt (c : Dev nD) (x : Fin 8192) (y : Fin 256) : EReal := V c main_call0_v17 (ix2 x y)
abbrev dAt (c : Dev nD) (x : Fin 8192) : EReal := V c main_call0_v16 (ix2 x 0)
abbrev bAt (c : Dev nD) (y : Fin 256) : EReal := V c main_call0_v13 (ix2 0 y)

def addend (c : Dev nD) (n : ℕ) (ab : Fin 256 × Fin 256) : EReal :=
  ∑ j : Fin 512, gAt V c ⟨(512 * (n % 16) + j.val) % 8192, Nat.mod_lt _ (by decide)⟩ ⟨(256 * (n / 16) + ab.1.val) % 8192, Nat.mod_lt _ (by decide)⟩
      * hAt V c ⟨(512 * (n % 16) + j.val) % 8192, Nat.mod_lt _ (by decide)⟩ ab.2

theorem acc_zero (c : Dev nD) (t : Fin cfg1.N) (h0 : t.val % 16 = 0) (ab : Fin 256 × Fin 256) :
    (outsAt1 V c t.val t.isLt).2 (ix2 ab.1 ab.2) = Cert.Spec.Z + addend V c t.val ab := by
  have h1 : ¬t.val % 16 = 15 := by omega
  rw [outsAt1_A V c t h0 h1]; unfold ptA; dsimp only
  rw [sout_A, pay2_apply, pay1_apply]
  unfold addend
  refine congrArg (Cert.Spec.Z + ·) (Finset.sum_congr rfl fun j _ => ?_)
  rw [iblk0_apply, iblk1_apply]

theorem acc_succ (c : Dev nD) (n : ℕ) (h : n + 1 < cfg1.N) (hs : ¬(n + 1) % 16 = 0) (ab : Fin 256 × Fin 256) :
    (outsAt1 V c (n + 1) h).2 (ix2 ab.1 ab.2)
      = (outsAt1 V c n (Nat.lt_of_succ_lt h)).2 (ix2 ab.1 ab.2) + addend V c (n + 1) ab := by
  by_cases h1 : (n + 1) % 16 = 15
  · rw [outsAt1_C V c ⟨n + 1, h⟩ hs h1]; unfold ptC; dsimp only
    rw [sout_C, pay2_apply]
    unfold addend
    refine congrArg₂ (· + ·) rfl (Finset.sum_congr rfl fun j _ => ?_)
    rw [iblk0_apply, iblk1_apply]
  · rw [outsAt1_B V c ⟨n + 1, h⟩ hs h1]; unfold ptB; dsimp only
    rw [sout_B, pay2_apply]
    unfold addend
    refine congrArg₂ (· + ·) rfl (Finset.sum_congr rfl fun j _ => ?_)
    rw [iblk0_apply, iblk1_apply]

theorem acc_eq (c : Dev nD) (t : Fin cfg1.N) (ab : Fin 256 × Fin 256) :
    (outsAt1 V c t.val t.isLt).2 (ix2 ab.1 ab.2)
      = Cert.Spec.Z + ∑ s ∈ Finset.range (t.val % 16 + 1), addend V c (16 * (t.val / 16) + s) ab := by
  have h' : 16 * (t.val / 16) + t.val % 16 < cfg1.N := by rw [Nat.div_add_mod]; exact t.isLt
  have e := Pipeline.eq_accAt_of_mod (N := cfg1.N)
    (fun n h => fun ab : Fin 256 × Fin 256 => (outsAt1 V c n h).2 (ix2 ab.1 ab.2)) 16
    (fun n _ => fun ab => Cert.Spec.Z + addend V c n ab) (fun n _ acc => fun ab => acc ab + addend V c n ab)
    (fun n h hn => funext fun ab => acc_zero V c ⟨n, h⟩ hn ab)
    (fun n h hn => funext fun ab => acc_succ V c n h hn ab)
    (by decide) t.val t.isLt h'
  refine (congrFun e ab).trans ?_
  exact Pipeline.accAt_add_apply _ _ (fun _ => Cert.Spec.Z) (fun n ab => addend V c n ab) (16 * (t.val / 16)) 15
    (fun _ _ => rfl) (fun _ _ _ _ _ _ => rfl) (t.val % 16) (by omega) h' ab

theorem addend_eq (c : Dev nD) (q s : ℕ) (hs : s < 16) (ab : Fin 256 × Fin 256) :
    addend V c (16 * q + s) ab
      = ∑ j : Fin 512, gAt V c ⟨(512 * s + j.val) % 8192, Nat.mod_lt _ (by decide)⟩ ⟨(256 * q + ab.1.val) % 8192, Nat.mod_lt _ (by decide)⟩
          * hAt V c ⟨(512 * s + j.val) % 8192, Nat.mod_lt _ (by decide)⟩ ab.2 := by
  have e1 : (16 * q + s) % 16 = s := by omega
  have e2 : (16 * q + s) / 16 = q := by omega
  unfold addend
  simp only [e1, e2]

def res1 (c : Dev nD) (i : Fin 8192) (f : Fin 256) : EReal :=
  dAt V c i
    * (∑ k ∈ Finset.range 16, ∑ j : Fin 512,
        gAt V c ⟨(512 * k + j.val) % 8192, Nat.mod_lt _ (by decide)⟩ i * hAt V c ⟨(512 * k + j.val) % 8192, Nat.mod_lt _ (by decide)⟩ f)
    + bAt V c f

theorem out_at (c : Dev nD) (t : Fin cfg1.N) (h1 : t.val % 16 = 15) (a b : Fin 256) :
    (outsAt1 V c t.val t.isLt).1 (ix2 a b) = res1 V c ⟨(256 * (t.val / 16) + a.val) % 8192, Nat.mod_lt _ (by decide)⟩ b := by
  have h0 : ¬t.val % 16 = 0 := by omega
  have e1 : (outsAt1 V c t.val t.isLt).1
      = k1_pay3 (F := Ideal) (iblk1 V c 2 t) (outsAt1 V c t.val t.isLt).2 (iblk1 V c 3 t) := by
    rw [outsAt1_C V c t h0 h1]; unfold ptC; dsimp only; rw [out_C, sout_C]
  have e2 := acc_eq V c t (a, b)
  rw [h1] at e2
  rw [e1, pay3_apply, iblk2_apply, iblk3_apply]
  show _ * (outsAt1 V c t.val t.isLt).2 (ix2 (a, b).1 (a, b).2) + _ = _
  rw [e2]
  unfold res1
  rw [Cert.Spec.Z_eq, zero_add]
  refine congrArg₂ (· + ·) (congrArg₂ (· * ·) rfl (Finset.sum_congr rfl fun s hs => ?_)) rfl
  exact addend_eq V c (t.val / 16) s (Finset.mem_range.mp hs) (a, b)

theorem val1 (c : Dev nD) (i : Fin 8192) (f : Fin 256) :
    (dat1 (F := Ideal) V c).arrAt 4 cfg1.N (ix2 i f)
      = dAt V c i
        * (∑ k ∈ Finset.range 16, ∑ j : Fin 512,
            gAt V c ⟨(512 * k + j.val) % 8192, Nat.mod_lt _ (by decide)⟩ i * hAt V c ⟨(512 * k + j.val) % 8192, Nat.mod_lt _ (by decide)⟩ f)
        + bAt V c f := by
  have hN : cfg1.N = 512 := N_1
  have hi8 : i.val < 8192 := i.isLt
  let t : Fin cfg1.N := ⟨16 * (i.val / 256) + 15, by rw [hN]; omega⟩
  have hf : (cfg1.win 4).flush t = true := (flush1_4 t).mpr (by show (16 * (i.val / 256) + 15) % 16 = 15; omega)
  have hP : ∀ t, (cfg1.win 4).flush t = true → ∀ y : ((cfg1.win 4).xblock (cfg1.grid.coords t)).Idx,
      (fun (idx : S8192x256.Idx) (v : EReal) => v = res1 V c (idx 0) (idx 1)) (((cfg1.win 4).blk t).view.emb y)
        (_root_.cast (congrArg (Elt Ideal) ((cfg1.win 4).blk t).view.elt_eq.symm) ((dat1 (F := Ideal) V c).flushed 4 t y)) := by
    intro t hf y
    have h1 : t.val % 16 = 15 := (flush1_4 t).mp hf
    have hN' := lt_N1 t
    show (dat1 (F := Ideal) V c).after 4 t ((cfg1.win 4).xinj (cfg1.grid.coords t) y) = res1 V c _ _
    rw [after1_4]
    have ha : (y 0).val < 256 := (y 0).isLt
    have hb : (y 1).val < 256 := (y 1).isLt
    have hy : (cfg1.win 4).xinj (cfg1.grid.coords t) y = ix2 (⟨(y 0).val, ha⟩ : Fin 256) (⟨(y 1).val, hb⟩ : Fin 256) :=
      funext fun ax => by match ax with | ⟨0, _⟩ => rfl | ⟨1, _⟩ => rfl
    refine (congrArg (outsAt1 V c t.val t.isLt).1 hy).trans ?_
    rw [out_at V c t h1]
    have hi := idx1_4 t
    congr 1
    · apply Fin.ext
      show (256 * (t.val / 16) + (y 0).val) % 8192 = win1_4.index t 0 * 256 + 1 * (y 0).val
      have := (y 0).isLt
      rw [hi.1]; omega
    · apply Fin.ext
      show (y 1).val = win1_4.index t 1 * 256 + 1 * (y 1).val
      rw [hi.2]; omega
  have hmem : (ix2 i f : S8192x256.Idx) ∈ ((cfg1.win 4).blk t).view.set := by
    show (ix2 i f : S8192x256.Idx) ∈ ((View.whole main_v0).slice (win1_4.rect t)).set
    rw [View.set_slice_whole, Rect.mem_set_unit]
    have hi := idx1_4 t
    intro ax
    match ax with
    | ⟨0, _⟩ =>
      show win1_4.index t 0 * 256 ≤ i.val ∧ i.val < win1_4.index t 0 * 256 + 256
      rw [hi.1]; show (16 * (i.val / 256) + 15) / 16 * 256 ≤ i.val ∧ i.val < (16 * (i.val / 256) + 15) / 16 * 256 + 256; omega
    | ⟨1, _⟩ =>
      show win1_4.index t 1 * 256 ≤ f.val ∧ f.val < win1_4.index t 1 * 256 + 256
      rw [hi.2]; omega
  exact (dat1 (F := Ideal) V c).arrAt_forall_of_flushed 4
    (fun (idx : S8192x256.Idx) (v : EReal) => v = res1 V c (idx 0) (idx 1)) hP cfg1.N t (ix2 i f) t.isLt hf hmem

end Fold

end Cert.ReferenceIdeal.Hand

end
-- ==== Proof.LibScatterSet.lean ====
import Idealize.ShloMosaic.Lib.ValueIdx

/-! A reshape read at an index. -/

namespace Cert.LibScatterSet

open Idealize.ShloMosaic

variable {s si u : Shape} {α : Type} {w : Nat}

def step (d : ScatterDims s si u) (idx : IVec si w) (upd : u.Idx → α) (r : s.Idx → α) (j : u.Idx) : s.Idx → α :=
  match d.resultIdx? j idx with
  | some i => fun i' => if i' = i then upd j else r i'
  | none => r

theorem step_of_some (d : ScatterDims s si u) (idx : IVec si w) (upd : u.Idx → α) (r : s.Idx → α) (j : u.Idx)
    (i : s.Idx) (h : d.resultIdx? j idx = some i) (i' : s.Idx) :
    step d idx upd r j i' = if i' = i then upd j else r i' := by
  unfold step; rw [h]

theorem scatter_eq_foldl (d : ScatterDims s si u) (x : s.Idx → α) (idx : IVec si w) (upd : u.Idx → α) :
    Host.scatter d (fun _ b => b) x idx upd = ((List.finRange u.numel).map u.rowMajor.symm).foldl (step d idx upd) x := by
  rw [List.foldl_map]; rfl

theorem foldl_step_of_not_hit (d : ScatterDims s si u) (idx : IVec si w) (upd : u.Idx → α) (e : u.Idx → s.Idx)
    (he : ∀ j, d.resultIdx? j idx = some (e j)) (i : s.Idx) :
    ∀ (l : List u.Idx) (r : s.Idx → α), (∀ j ∈ l, e j ≠ i) → l.foldl (step d idx upd) r i = r i := by
  intro l
  induction l with
  | nil => intro r _; rfl
  | cons a l ih =>
    intro r h
    rw [List.foldl_cons, ih _ (fun j hj => h j (List.mem_cons_of_mem _ hj)), step_of_some d idx upd r a (e a) (he a),
      if_neg (fun hh => h a List.mem_cons_self hh.symm)]

theorem foldl_step_of_mem (d : ScatterDims s si u) (idx : IVec si w) (upd : u.Idx → α) (e : u.Idx → s.Idx)
    (he : ∀ j, d.resultIdx? j idx = some (e j)) (hinj : Function.Injective e) (j : u.Idx) :
    ∀ (l : List u.Idx) (r : s.Idx → α), l.Nodup → j ∈ l → l.foldl (step d idx upd) r (e j) = upd j := by
  intro l
  induction l with
  | nil => intro r _ h; exact absurd h List.not_mem_nil
  | cons a l ih =>
    intro r hnd hj
    rw [List.foldl_cons]
    rcases List.mem_cons.1 hj with rfl | hj'
    · rw [foldl_step_of_not_hit d idx upd e he (e j) l _ (fun j' hj' hh => (List.nodup_cons.1 hnd).1 (hinj hh ▸ hj')),
        step_of_some d idx upd r j (e j) (he j), if_pos rfl]
    · exact ih _ (List.nodup_cons.1 hnd).2 hj'

theorem scatter_set_apply (d : ScatterDims s si u) (x : s.Idx → α) (idx : IVec si w) (upd : u.Idx → α) (e : u.Idx → s.Idx)
    (he : ∀ j, d.resultIdx? j idx = some (e j)) (hinj : Function.Injective e) (j : u.Idx) :
    Host.scatter d (fun _ b => b) x idx upd (e j) = upd j := by
  rw [scatter_eq_foldl]
  refine foldl_step_of_mem d idx upd e he hinj j _ x ?_ ?_
  · exact (List.nodup_finRange _).map u.rowMajor.symm.injective
  · exact List.mem_map.2 ⟨u.rowMajor j, List.mem_finRange _, u.rowMajor.symm_apply_apply j⟩

theorem scatter_set_of_not_hit (d : ScatterDims s si u) (x : s.Idx → α) (idx : IVec si w) (upd : u.Idx → α) (e : u.Idx → s.Idx)
    (he : ∀ j, d.resultIdx? j idx = some (e j)) (i : s.Idx) (hi : ∀ j, e j ≠ i) :
    Host.scatter d (fun _ b => b) x idx upd i = x i := by
  rw [scatter_eq_foldl]
  exact foldl_step_of_not_hit d idx upd e he i _ x (fun j _ => hi j)

end Cert.LibScatterSet
-- ==== Proof.ReferenceIdeal.Host.lean ====
import proofs.«123510_g2000706009674355_pallasbulk_102_2_alg».proof.Proof.Gen.ReferenceIdeal.Regions
import proofs.«123510_g2000706009674355_pallasbulk_102_2_alg».proof.Proof.LibScatterSet
import proofs.«123510_g2000706009674355_pallasbulk_102_2_alg».proof.Proof.Spec
import Idealize.ShloMosaic.Lib.ValueLayout

/-! The reference's operations between its regions, read at an index: the column sums as one reduction, d from them, and the reshapes. -/

noncomputable section

open scoped BigOperators

namespace Cert.ReferenceIdeal.Hand

open Idealize.ShloMosaic Idealize.ShloMosaic.TcCoe
open Idealize.ShloMosaic.StableHlo Idealize.ShloMosaic.ValueIdx
open Cert.ReferenceIdeal Cert.ReferenceIdeal.Gen
open Cert.LibScatterSet

variable (m : (ℓ : Loc nD τ sig) → Buf (Elt Ideal) ℓ) (c : Dev nD)

theorem start_v6 (j : S8192x256.Idx) (idx : IVec S0 32) (a : Fin 2) : scatter_S8192x256_S0_S8192x256_01_n_n_0.start j idx a = 0 := by
  unfold ScatterDims.start
  exact dif_neg (by simp [scatter_S8192x256_S0_S8192x256_01_n_n_0])

theorem window_v6 (j : S8192x256.Idx) (a : Fin 2) : scatter_S8192x256_S0_S8192x256_01_n_n_0.window j a = (j a).val := by
  fin_cases a <;> rfl

theorem resultIdx_v6 (j : S8192x256.Idx) (idx : IVec S0 32) : scatter_S8192x256_S0_S8192x256_01_n_n_0.resultIdx? j idx = some j := by
  unfold ScatterDims.resultIdx?
  have h : ∀ a, 0 ≤ scatter_S8192x256_S0_S8192x256_01_n_n_0.start j idx a + scatter_S8192x256_S0_S8192x256_01_n_n_0.window j a
      ∧ scatter_S8192x256_S0_S8192x256_01_n_n_0.start j idx a + scatter_S8192x256_S0_S8192x256_01_n_n_0.window j a < S8192x256.size a := by
    intro a; rw [start_v6, window_v6]; have := (j a).isLt; constructor <;> omega
  rw [dif_pos h]
  congr 1; funext a; apply Fin.ext
  show (scatter_S8192x256_S0_S8192x256_01_n_n_0.start j idx a + scatter_S8192x256_S0_S8192x256_01_n_n_0.window j a).toNat = (j a).val
  rw [start_v6, window_v6]; omega

theorem V1_v6 (i : S8192x256.Idx) :
    (Gen.V1 (F := Ideal) m c main_call0_v6 : S8192x256.Idx → EReal) i = (Gen.V0 m c main_arg0 : S8192x256.Idx → EReal) i := by
  dsimp only [Gen.V1, Gen.hostOps0]; after_results
  delta TRef.toBuf TRef.ofBuf
  beta_reduce
  rw [cast_eq]
  refine (scatter_set_apply _ _ _ _ id (fun j => resultIdx_v6 j _) Function.injective_id i).trans ?_
  rw [cast_eq]

theorem start_v8 (j : S8192x8192.Idx) (idx : IVec S0 32) (a : Fin 2) : scatter_S8192x8192_S0_S8192x8192_01_n_n_0.start j idx a = 0 := by
  unfold ScatterDims.start
  exact dif_neg (by simp [scatter_S8192x8192_S0_S8192x8192_01_n_n_0])

theorem window_v8 (j : S8192x8192.Idx) (a : Fin 2) : scatter_S8192x8192_S0_S8192x8192_01_n_n_0.window j a = (j a).val := by
  fin_cases a <;> rfl

theorem resultIdx_v8 (j : S8192x8192.Idx) (idx : IVec S0 32) : scatter_S8192x8192_S0_S8192x8192_01_n_n_0.resultIdx? j idx = some j := by
  unfold ScatterDims.resultIdx?
  have h : ∀ a, 0 ≤ scatter_S8192x8192_S0_S8192x8192_01_n_n_0.start j idx a + scatter_S8192x8192_S0_S8192x8192_01_n_n_0.window j a
      ∧ scatter_S8192x8192_S0_S8192x8192_01_n_n_0.start j idx a + scatter_S8192x8192_S0_S8192x8192_01_n_n_0.window j a < S8192x8192.size a := by
    intro a; rw [start_v8, window_v8]; have := (j a).isLt; constructor <;> omega
  rw [dif_pos h]
  congr 1; funext a; apply Fin.ext
  show (scatter_S8192x8192_S0_S8192x8192_01_n_n_0.start j idx a + scatter_S8192x8192_S0_S8192x8192_01_n_n_0.window j a).toNat = (j a).val
  rw [start_v8, window_v8]; omega

theorem V1_v8 (i : S8192x8192.Idx) :
    (Gen.V1 (F := Ideal) m c main_call0_v8 : S8192x8192.Idx → EReal) i = (Gen.V0 m c main_arg1 : S8192x8192.Idx → EReal) i := by
  dsimp only [Gen.V1, Gen.hostOps0]; after_results
  delta TRef.toBuf TRef.ofBuf
  beta_reduce
  rw [cast_eq]
  refine (scatter_set_apply _ _ _ _ id (fun j => resultIdx_v8 j _) Function.injective_id i).trans ?_
  rw [cast_eq]

theorem start_v10 (j : S256x256.Idx) (idx : IVec S0 32) (a : Fin 2) : scatter_S256x256_S0_S256x256_01_n_n_0.start j idx a = 0 := by
  unfold ScatterDims.start
  exact dif_neg (by simp [scatter_S256x256_S0_S256x256_01_n_n_0])

theorem window_v10 (j : S256x256.Idx) (a : Fin 2) : scatter_S256x256_S0_S256x256_01_n_n_0.window j a = (j a).val := by
  fin_cases a <;> rfl

theorem resultIdx_v10 (j : S256x256.Idx) (idx : IVec S0 32) : scatter_S256x256_S0_S256x256_01_n_n_0.resultIdx? j idx = some j := by
  unfold ScatterDims.resultIdx?
  have h : ∀ a, 0 ≤ scatter_S256x256_S0_S256x256_01_n_n_0.start j idx a + scatter_S256x256_S0_S256x256_01_n_n_0.window j a
      ∧ scatter_S256x256_S0_S256x256_01_n_n_0.start j idx a + scatter_S256x256_S0_S256x256_01_n_n_0.window j a < S256x256.size a := by
    intro a; rw [start_v10, window_v10]; have := (j a).isLt; constructor <;> omega
  rw [dif_pos h]
  congr 1; funext a; apply Fin.ext
  show (scatter_S256x256_S0_S256x256_01_n_n_0.start j idx a + scatter_S256x256_S0_S256x256_01_n_n_0.window j a).toNat = (j a).val
  rw [start_v10, window_v10]; omega

theorem V1_v10 (i : S256x256.Idx) :
    (Gen.V1 (F := Ideal) m c main_call0_v10 : S256x256.Idx → EReal) i = (Gen.V0 m c main_arg2 : S256x256.Idx → EReal) i := by
  dsimp only [Gen.V1, Gen.hostOps0]; after_results
  delta TRef.toBuf TRef.ofBuf
  beta_reduce
  rw [cast_eq]
  refine (scatter_set_apply _ _ _ _ id (fun j => resultIdx_v10 j _) Function.injective_id i).trans ?_
  rw [cast_eq]

theorem resultIdx_v13 (j : S256.Idx) (idx : IVec S1 32) (hidx : ∀ k, idx k = 0#32) :
    scatter_S1x256_S1_S256_0_0_0_0.resultIdx? j idx = some (ix2 (0 : Fin 1) (j 0)) := by
  have hs : ∀ a, scatter_S1x256_S1_S256_0_0_0_0.start j idx a = 0 := by
    intro a; unfold ScatterDims.start
    fin_cases a
    · rw [dif_pos (by simp [scatter_S1x256_S1_S256_0_0_0_0]), hidx]; rfl
    · exact dif_neg (by simp [scatter_S1x256_S1_S256_0_0_0_0])
  have hw0 : scatter_S1x256_S1_S256_0_0_0_0.window j 0 = 0 := rfl
  have hw1 : scatter_S1x256_S1_S256_0_0_0_0.window j 1 = (j 0).val := rfl
  have hj : (j 0).val < 256 := (j 0).isLt
  unfold ScatterDims.resultIdx?
  have h : ∀ a, 0 ≤ scatter_S1x256_S1_S256_0_0_0_0.start j idx a + scatter_S1x256_S1_S256_0_0_0_0.window j a
      ∧ scatter_S1x256_S1_S256_0_0_0_0.start j idx a + scatter_S1x256_S1_S256_0_0_0_0.window j a < S1x256.size a := by
    intro a; rw [hs]
    fin_cases a
    · show (0 : Int) ≤ 0 + (scatter_S1x256_S1_S256_0_0_0_0.window j 0 : Nat) ∧ (0 : Int) + (scatter_S1x256_S1_S256_0_0_0_0.window j 0 : Nat) < (1 : Nat)
      rw [hw0]; decide
    · show (0 : Int) ≤ 0 + (scatter_S1x256_S1_S256_0_0_0_0.window j 1 : Nat) ∧ (0 : Int) + (scatter_S1x256_S1_S256_0_0_0_0.window j 1 : Nat) < (256 : Nat)
      rw [hw1]; constructor <;> omega
  rw [dif_pos h]
  congr 1; funext a; apply Fin.ext
  show (scatter_S1x256_S1_S256_0_0_0_0.start j idx a + scatter_S1x256_S1_S256_0_0_0_0.window j a).toNat = (ix2 (0 : Fin 1) (j 0) a).val
  rw [hs]
  fin_cases a
  · show ((0 : Int) + (scatter_S1x256_S1_S256_0_0_0_0.window j 0 : Nat)).toNat = 0; rw [hw0]; rfl
  · show ((0 : Int) + (scatter_S1x256_S1_S256_0_0_0_0.window j 1 : Nat)).toNat = (j 0).val; rw [hw1]; omega

theorem e13_inj : Function.Injective (fun j : S256.Idx => (ix2 (0 : Fin 1) (j 0) : S1x256.Idx)) := by
  intro j j' h
  have h0 : j 0 = j' 0 := congrFun h 1
  rw [eq_ix1 j, eq_ix1 j', h0]

theorem V1_v13 (f : Fin 256) :
    (Gen.V1 (F := Ideal) m c main_call0_v13 : S1x256.Idx → EReal) (ix2 0 f) = (Gen.V0 m c main_arg3 : S256.Idx → EReal) (ix1 f) := by
  dsimp only [Gen.V1, Gen.hostOps0]; after_results
  delta TRef.toBuf TRef.ofBuf
  beta_reduce
  rw [cast_eq]
  refine (scatter_set_apply _ _ _ _ (fun j : S256.Idx => (ix2 (0 : Fin 1) (j 0) : S1x256.Idx))
    (fun j => resultIdx_v13 j _ (fun k => ?_)) e13_inj (ix1 f)).trans ?_
  · repeat rw [cast_eq]
    rfl
  · rw [cast_eq]

theorem resultIdx_v16 (j : S8192.Idx) (idx : IVec S1 32) (hidx : ∀ k, idx k = 0#32) :
    scatter_S8192x1_S1_S8192_0_1_1_0.resultIdx? j idx = some (ix2 (j 0) (0 : Fin 1)) := by
  have hs : ∀ a, scatter_S8192x1_S1_S8192_0_1_1_0.start j idx a = 0 := by
    intro a; unfold ScatterDims.start
    fin_cases a
    · exact dif_neg (by simp [scatter_S8192x1_S1_S8192_0_1_1_0])
    · rw [dif_pos (by simp [scatter_S8192x1_S1_S8192_0_1_1_0]), hidx]; rfl
  have hw0 : scatter_S8192x1_S1_S8192_0_1_1_0.window j 0 = (j 0).val := rfl
  have hw1 : scatter_S8192x1_S1_S8192_0_1_1_0.window j 1 = 0 := rfl
  have hj : (j 0).val < 8192 := (j 0).isLt
  unfold ScatterDims.resultIdx?
  have h : ∀ a, 0 ≤ scatter_S8192x1_S1_S8192_0_1_1_0.start j idx a + scatter_S8192x1_S1_S8192_0_1_1_0.window j a
      ∧ scatter_S8192x1_S1_S8192_0_1_1_0.start j idx a + scatter_S8192x1_S1_S8192_0_1_1_0.window j a < S8192x1.size a := by
    intro a; rw [hs]
    fin_cases a
    · show (0 : Int) ≤ 0 + (scatter_S8192x1_S1_S8192_0_1_1_0.window j 0 : Nat) ∧ (0 : Int) + (scatter_S8192x1_S1_S8192_0_1_1_0.window j 0 : Nat) < (8192 : Nat)
      rw [hw0]; constructor <;> omega
    · show (0 : Int) ≤ 0 + (scatter_S8192x1_S1_S8192_0_1_1_0.window j 1 : Nat) ∧ (0 : Int) + (scatter_S8192x1_S1_S8192_0_1_1_0.window j 1 : Nat) < (1 : Nat)
      rw [hw1]; decide
  rw [dif_pos h]
  congr 1; funext a; apply Fin.ext
  show (scatter_S8192x1_S1_S8192_0_1_1_0.start j idx a + scatter_S8192x1_S1_S8192_0_1_1_0.window j a).toNat = (ix2 (j 0) (0 : Fin 1) a).val
  rw [hs]
  fin_cases a
  · show ((0 : Int) + (scatter_S8192x1_S1_S8192_0_1_1_0.window j 0 : Nat)).toNat = (j 0).val; rw [hw0]; omega
  · show ((0 : Int) + (scatter_S8192x1_S1_S8192_0_1_1_0.window j 1 : Nat)).toNat = 0; rw [hw1]; rfl

theorem e16_inj : Function.Injective (fun j : S8192.Idx => (ix2 (j 0) (0 : Fin 1) : S8192x1.Idx)) := by
  intro j j' h
  have h0 : j 0 = j' 0 := congrFun h 0
  rw [eq_ix1 j, eq_ix1 j', h0]

theorem colsum_apply (g : S8192x8192.Idx → EReal) (init : S_.Idx → EReal) (hinit : ∀ k, init k = Cert.Spec.Z) (j : Fin 8192) :
    Host.reduceAdd (F := Ideal) (φ := .f32) g init reducesTo_S8192x8192_S8192_d0 h_S_ (ix1 j)
      = Cert.Spec.Z + ∑ i : Fin 8192, g (ix2 i j) := by
  unfold Host.reduceAdd
  show Ideal.hostReduceAdd reducesTo_S8192x8192_S8192_d0 g (init (Shape.Idx.first h_S_)) (ix1 j) = _
  rw [hinit, Ideal.hostReduceAdd_single reducesTo_S8192x8192_S8192_d0 (by decide : S8192x8192.Reduces [0] S8192)]
  refine congrArg _ (Finset.sum_congr rfl fun k _ => congrArg g ?_)
  funext a; apply Fin.ext; fin_cases a <;> rfl

theorem host_rsqrt_apply {s : Shape} (x : FVec Ideal s .f32) (i : s.Idx) : Host.rsqrt x i = FloatOps.rsqrt (x i) := rfl

theorem V1_v16 (j : Fin 8192) :
    (Gen.V1 (F := Ideal) m c main_call0_v16 : S8192x1.Idx → EReal) (ix2 j 0)
      = Cert.Spec.dinvOf (Cert.Spec.Z + (∑ i : Fin 8192, (Gen.V0 m c main_arg1 : S8192x8192.Idx → EReal) (ix2 i j) : EReal)) := by
  dsimp only [Gen.V1, Gen.hostOps0]; after_results
  delta TRef.toBuf TRef.ofBuf
  beta_reduce
  rw [cast_eq]
  refine (scatter_set_apply _ _ _ _ (fun j : S8192.Idx => (ix2 (j 0) (0 : Fin 1) : S8192x1.Idx))
    (fun j => resultIdx_v16 j _ (fun k => ?_)) e16_inj (ix1 j)).trans ?_
  · repeat rw [cast_eq]
    rfl
  · repeat rw [cast_eq]
    rw [select_apply, cmpf_apply, host_rsqrt_apply, colsum_apply _ (constant (F := Ideal) S_ .f32 0x00000000#32) (fun _ => rfl)]
    rfl

theorem V1_v6_fun : (Gen.V1 (F := Ideal) m c main_call0_v6 : S8192x256.Idx → EReal) = (Gen.V0 m c main_arg0 : S8192x256.Idx → EReal) :=
  funext (V1_v6 m c)
theorem V1_v8_fun : (Gen.V1 (F := Ideal) m c main_call0_v8 : S8192x8192.Idx → EReal) = (Gen.V0 m c main_arg1 : S8192x8192.Idx → EReal) :=
  funext (V1_v8 m c)
theorem V1_v10_fun : (Gen.V1 (F := Ideal) m c main_call0_v10 : S256x256.Idx → EReal) = (Gen.V0 m c main_arg2 : S256x256.Idx → EReal) :=
  funext (V1_v10 m c)

theorem V1_v13_idx (i : S1x256.Idx) :
    (Gen.V1 (F := Ideal) m c main_call0_v13 : S1x256.Idx → EReal) i = (Gen.V0 m c main_arg3 : S256.Idx → EReal) (ix1 (i 1)) := by
  have h0 : (i 0).val = 0 := by have h : (i 0).val < 1 := (i 0).isLt; omega
  have hi : i = ix2 (0 : Fin 1) (i 1) := by
    funext a; fin_cases a
    · exact Fin.ext h0
    · rfl
  exact (congrArg (Gen.V1 (F := Ideal) m c main_call0_v13 : S1x256.Idx → EReal) hi).trans (V1_v13 m c (i 1))

theorem V1_v16_idx (i : S8192x1.Idx) :
    (Gen.V1 (F := Ideal) m c main_call0_v16 : S8192x1.Idx → EReal) i
      = Cert.Spec.dinvOf (Cert.Spec.Z + (∑ k : Fin 8192, (Gen.V0 m c main_arg1 : S8192x8192.Idx → EReal) (ix2 k (i 0)) : EReal)) := by
  have h1 : (i 1).val = 0 := by have h : (i 1).val < 1 := (i 1).isLt; omega
  have hi : i = ix2 (i 0) (0 : Fin 1) := by
    funext a; fin_cases a
    · rfl
    · exact Fin.ext h1
  exact (congrArg (Gen.V1 (F := Ideal) m c main_call0_v16 : S8192x1.Idx → EReal) hi).trans (V1_v16 m c (i 0))

end Cert.ReferenceIdeal.Hand
end
-- ==== Proof.ReferenceIdeal.Final.lean ====
import proofs.«123510_g2000706009674355_pallasbulk_102_2_alg».proof.Proof.ReferenceIdeal.Run
import proofs.«123510_g2000706009674355_pallasbulk_102_2_alg».proof.Proof.ReferenceIdeal.Val0
import proofs.«123510_g2000706009674355_pallasbulk_102_2_alg».proof.Proof.Layer
import proofs.«123510_g2000706009674355_pallasbulk_102_2_alg».proof.Proof.ReferenceIdeal.Val1
import proofs.«123510_g2000706009674355_pallasbulk_102_2_alg».proof.Proof.ReferenceIdeal.Host

/-! The reference's result as one formula of its four arguments. -/

noncomputable section

namespace Cert.ReferenceIdeal.Hand

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ)

abbrev Xarr (c : Dev nD) : Vec Ideal S8192x256 .f32 := m ((c : Thread nD τ).loc main_arg0)
abbrev Garr (c : Dev nD) : Vec Ideal S8192x8192 .f32 := m ((c : Thread nD τ).loc main_arg1)
abbrev Warr (c : Dev nD) : Vec Ideal S256x256 .f32 := m ((c : Thread nD τ).loc main_arg2)
abbrev Barr (c : Dev nD) : Vec Ideal S256 .f32 := m ((c : Thread nD τ).loc main_arg3)

abbrev Dof (c : Dev nD) : Fin 8192 → EReal := fun j => Cert.Spec.dinvOf (Cert.Spec.degFlat (Garr m c) j)

abbrev xA (c : Dev nD) : Vec Ideal S8192x256 .f32 := V1 m c main_call0_v6
abbrev gA (c : Dev nD) : Vec Ideal S8192x8192 .f32 := V1 m c main_call0_v8
abbrev wA (c : Dev nD) : Vec Ideal S256x256 .f32 := V1 m c main_call0_v10
abbrev bA (c : Dev nD) : Vec Ideal S1x256 .f32 := V1 m c main_call0_v13
abbrev dA (c : Dev nD) : Vec Ideal S8192x1 .f32 := V1 m c main_call0_v16

abbrev gB (c : Dev nD) : Vec Ideal S8192x8192 .f32 := V2 m (outsB m) c main_call0_v8
abbrev hB (c : Dev nD) : Vec Ideal S8192x256 .f32 := V2 m (outsB m) c main_call0_v17
abbrev dB (c : Dev nD) : Vec Ideal S8192x1 .f32 := V2 m (outsB m) c main_call0_v16
abbrev bB (c : Dev nD) : Vec Ideal S1x256 .f32 := V2 m (outsB m) c main_call0_v13

theorem xA_apply (c : Dev nD) (i : S8192x256.Idx) : xA m c i = Xarr m c i := V1_v6 m c i
theorem gA_apply (c : Dev nD) (i : S8192x8192.Idx) : gA m c i = Garr m c i := V1_v8 m c i
theorem wA_apply (c : Dev nD) (i : S256x256.Idx) : wA m c i = Warr m c i := V1_v10 m c i
theorem bA_apply (c : Dev nD) (f : Fin 256) : bA m c (ix2 0 f) = Barr m c (ix1 f) := V1_v13 m c f
theorem dA_apply (c : Dev nD) (j : Fin 8192) : dA m c (ix2 j 0) = Dof m c j := V1_v16 m c j

theorem agg_apply (c : Dev nD) (i : Fin 8192) (f : Fin 256) :
    ((dat1 (atTc (V2 m (outsB m))) c).arrAt 4 cfg1.N : Vec Ideal S8192x256 .f32) (ix2 i f)
      = dB m c (ix2 i 0) * (∑ k ∈ Finset.range 16, ∑ j : Fin 512,
          gB m c (ix2 (Cert.Spec.rowOf 512 k j.val) i) * hB m c (ix2 (Cert.Spec.rowOf 512 k j.val) f))
        + bB m c (ix2 0 f) :=
  val1 (atTc (V2 m (outsB m))) c i f

theorem X3_result (c : Dev nD) : X3 m c main_v0 = (dat1 (atTc (V2 m (outsB m))) c).arrAt 4 cfg1.N := by
  show X3 m c (Proc.devRef .tc main_v0) = _
  unfold X3
  exact Pipeline.withArrays_arr spec1 launch1.win.arr_inj c (V2 m (outsB m) c) (fun w => (dat1 (atTc (V2 m (outsB m))) c).arrAt w cfg1.N) 4

theorem gB_eq (c : Dev nD) : gB m c = gA m c := V2_of m (outsB m) c main_call0_v8 (by decide)
theorem dB_eq (c : Dev nD) : dB m c = dA m c := V2_of m (outsB m) c main_call0_v16 (by decide)
theorem bB_eq (c : Dev nD) : bB m c = bA m c := V2_of m (outsB m) c main_call0_v13 (by decide)

theorem hB_eq (c : Dev nD) : hB m c = (dat0 (atTc (V1 m)) c).arrAt 3 cfg0.N := by
  show Function.update (V1 m c) main_call0_v17 (outsB m 2 main_call0_v17 c) main_call0_v17 = _
  rw [Function.update_self]
  show X2 m c (Proc.devRef .tc main_call0_v17) = _
  unfold X2
  exact Pipeline.withArrays_arr spec0 launch0.win.arr_inj c (V1 m c) (fun w => (dat0 (atTc (V1 m)) c).arrAt w cfg0.N) 3

theorem gB_apply (c : Dev nD) (r i : Fin 8192) : gB m c (ix2 r i) = Garr m c (ix2 r i) := by
  rw [gB_eq]; exact gA_apply m c (ix2 r i)

theorem dB_apply (c : Dev nD) (j : Fin 8192) : dB m c (ix2 j 0) = Dof m c j := by
  rw [dB_eq]; exact dA_apply m c j

theorem bB_apply (c : Dev nD) (f : Fin 256) : bB m c (ix2 0 f) = Barr m c (ix1 f) := by
  rw [bB_eq]; exact bA_apply m c f

theorem hB_apply (c : Dev nD) (r : Fin 8192) (f : Fin 256) :
    hB m c (ix2 r f) = Dof m c r * ∑ mm : Fin 256, Xarr m c (ix2 r mm) * Warr m c (ix2 mm f) := by
  rw [hB_eq]
  refine (Val0.final_apply (atTc (V1 m)) c r f).trans ?_
  refine congrArg₂ (· * ·) (dA_apply m c r) (Finset.sum_congr rfl fun mm _ => congrArg₂ (· * ·) ?_ ?_)
  · exact xA_apply m c (ix2 r mm)
  · exact wA_apply m c (ix2 mm f)

theorem result_blocks (c : Dev nD) (i : Fin 8192) (f : Fin 256) :
    (X3 m c main_v0 : Vec Ideal S8192x256 .f32) (ix2 i f)
      = dB m c (ix2 i 0) * (∑ k ∈ Finset.range 16, ∑ j : Fin 512,
          gB m c (ix2 (Cert.Spec.rowOf 512 k j.val) i) * hB m c (ix2 (Cert.Spec.rowOf 512 k j.val) f))
        + bB m c (ix2 0 f) := by
  rw [X3_result]
  exact agg_apply m c i f

theorem result_apply (c : Dev nD) (i : Fin 8192) (f : Fin 256) :
    (X3 m c main_v0 : S8192x256.Idx → EReal) (ix2 i f)
      = Cert.Spec.yOf (fun j => Cert.Spec.dinvOf (Cert.Spec.degFlat (m ((c : Thread nD τ).loc main_arg1)) j))
          (m ((c : Thread nD τ).loc main_arg1)) (m ((c : Thread nD τ).loc main_arg0)) (m ((c : Thread nD τ).loc main_arg2))
          (m ((c : Thread nD τ).loc main_arg3)) i f := by
  refine (result_blocks m c i f).trans ?_
  show _ = Cert.Spec.yOf (Dof m c) (Garr m c) (Xarr m c) (Warr m c) (Barr m c) i f
  unfold Cert.Spec.yOf
  refine congrArg₂ (· + ·) (congrArg₂ (· * ·) (dB_apply m c i) (Finset.sum_congr rfl fun k _ => Finset.sum_congr rfl fun j _ => ?_)) (bB_apply m c f)
  exact congrArg₂ (· * ·) (gB_apply m c _ i) (hB_apply m c _ f)

end Cert.ReferenceIdeal.Hand

end
-- ==== Proof.Claims.lean ====
import proofs.«123510_g2000706009674355_pallasbulk_102_2_alg».proof.Defs
import proofs.«123510_g2000706009674355_pallasbulk_102_2_alg».proof.Proof.Kernel.Run
import proofs.«123510_g2000706009674355_pallasbulk_102_2_alg».proof.Proof.KernelIdeal.RunValue
import proofs.«123510_g2000706009674355_pallasbulk_102_2_alg».proof.Proof.ReferenceIdeal.RunValue
import proofs.«123510_g2000706009674355_pallasbulk_102_2_alg».proof.Proof.KernelIdeal.Final
import proofs.«123510_g2000706009674355_pallasbulk_102_2_alg».proof.Proof.ReferenceIdeal.Final
import proofs.«123510_g2000706009674355_pallasbulk_102_2_alg».proof.Proof.Gen.Pre_finite_inputs

/-! The five conjuncts. -/

noncomputable section

namespace Cert.Proof.Claims

open Idealize.ShloMosaic Idealize.ShloMosaic.TcCoe Idealize.SL.Sem Idealize.ShloMosaic.ValueIdx

theorem frame_p : Cert.frame_Kernel := fun m ρ _ => Cert.Kernel.Hand.frame (F := Bits) m ρ
theorem frame_pi : Cert.frame_KernelIdeal := fun m ρ _ => Cert.KernelIdeal.Hand.frame (F := Ideal) m ρ
theorem frame_ri : Cert.frame_ReferenceIdeal := fun m ρ _ => Cert.ReferenceIdeal.Hand.frame (F := Ideal) m ρ

theorem preserves : Cert.preserves_Kernel_KernelIdeal := trivial

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Hand.X3 (F := Ideal) m' c Cert.ReferenceIdeal.main_v0
      = Cert.KernelIdeal.Hand.X5 (F := Ideal) m c Cert.KernelIdeal.main_v1 := by
  funext idx
  obtain ⟨i, f, rfl⟩ : ∃ (i : Fin 8192) (f : Fin 256), idx = ix2 i f := ⟨idx 0, idx 1, eq_ix2 idx⟩
  refine (Cert.ReferenceIdeal.Hand.result_apply m' c i f).trans ?_
  refine Eq.trans ?_ (Cert.KernelIdeal.Hand.result_apply m c i f).symm
  rw [h0, h1, h2, h3]
  exact (Cert.Spec.yOf_blocks_eq_flat _ _ _ _ i f).symm

theorem algebraic : Cert.algebraic_KernelIdeal_ReferenceIdeal := by
  intro m ρ m' ρ' _ hagree
  refine ⟨fun c => Cert.KernelIdeal.Hand.X5 (F := Ideal) m c Cert.KernelIdeal.main_v1, Cert.KernelIdeal.Hand.run_value (F := Ideal) m ρ, ?_⟩
  refine (θ_run Cert.ReferenceIdeal.defs _ _).mono (fun _ h c => ⟨(h c).1.trans ?_, (h c).2⟩)
    (Cert.ReferenceIdeal.Hand.run_value (F := Ideal) m' ρ')
  exact result_eq m m' c (hagree c).1 (hagree c).2.1 (hagree c).2.2.1 (hagree c).2.2.2

end Cert.Proof.Claims

end
-- ==== Proof.lean ====
/-
  A normalised graph convolution: with d j = rsqrt (∑ᵢ g (i, j)) where that sum is positive and 0 elsewhere,
  y = d ⊙ (gᵀ · (d ⊙ (x · w))) + b. One program sums the columns blockwise, forms d ⊙ (x · w) and aggregates over 16
  steps in the output block; the other sums the columns in one pass and aggregates in an accumulator. Each
  program's run is read at an index, and both results are the same formula of g, x, w and b: a sum over 8192 rows taken
  in blocks is the sum over the rows.
-/
import proofs.«123510_g2000706009674355_pallasbulk_102_2_alg».proof.Defs
import proofs.«123510_g2000706009674355_pallasbulk_102_2_alg».proof.Proof.Claims
import proofs.«123510_g2000706009674355_pallasbulk_102_2_alg».proof.Proof.Gen.Kernel
import proofs.«123510_g2000706009674355_pallasbulk_102_2_alg».proof.Proof.Gen.KernelIdeal
import proofs.«123510_g2000706009674355_pallasbulk_102_2_alg».proof.Proof.Gen.ReferenceIdeal
import proofs.«123510_g2000706009674355_pallasbulk_102_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
